-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000 : Shape := ⟨1, ![8000]⟩
abbrev S60000 : Shape := ⟨1, ![60000]⟩
abbrev S480000 : Shape := ⟨1, ![480000]⟩
abbrev S50x256 : Shape := ⟨2, ![50, 256]⟩
abbrev S4x256 : Shape := ⟨2, ![4, 256]⟩
abbrev S100x256 : Shape := ⟨2, ![100, 256]⟩
abbrev S8x256 : Shape := ⟨2, ![8, 256]⟩
abbrev S200x256 : Shape := ⟨2, ![200, 256]⟩
abbrev S16x256 : Shape := ⟨2, ![16, 256]⟩
abbrev S256 : Shape := ⟨1, ![256]⟩
abbrev S_ : Shape := ⟨0, ![]⟩

class Facts : Prop where
  bcast_S_S50x256 : S_.BroadcastsInDim S50x256 (![] : Fin 0 → Fin S50x256.rank)
  reducesTo_S50x256_S_d0_1 : S50x256.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S100x256 : S_.BroadcastsInDim S100x256 (![] : Fin 0 → Fin S100x256.rank)
  reducesTo_S100x256_S_d0_1 : S100x256.ReducesTo [0, 1] S_
  bcast_S_S8x256 : S_.BroadcastsInDim S8x256 (![] : Fin 0 → Fin S8x256.rank)
  reducesTo_S8x256_S_d0_1 : S8x256.ReducesTo [0, 1] S_
  bcast_S_S200x256 : S_.BroadcastsInDim S200x256 (![] : Fin 0 → Fin S200x256.rank)
  reducesTo_S200x256_S_d0_1 : S200x256.ReducesTo [0, 1] S_
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_
  bcast_S_S8000 : S_.BroadcastsInDim S8000 (![] : Fin 0 → Fin S8000.rank)
  reducesTo_S8000_S_d0 : S8000.ReducesTo [0] S_
  bcast_S_S60000 : S_.BroadcastsInDim S60000 (![] : Fin 0 → Fin S60000.rank)
  reducesTo_S60000_S_d0 : S60000.ReducesTo [0] S_
  bcast_S_S480000 : S_.BroadcastsInDim S480000 (![] : Fin 0 → Fin S480000.rank)
  reducesTo_S480000_S_d0 : S480000.ReducesTo [0] S_

variable [Facts]

def fn_part4 {F : FTy → Type} [FloatOps F] (main_arg2 : IVec S480000 32) (main_v67 : IVec S_ 1) : IVec S_ 1 :=
  let main_c_26 : IVec S_ 32 := constantI S_ 32 0#32
  let main_v68 : IVec S480000 32 := broadcastInDim S480000 ![] bcast_S_S480000 main_c_26
  let main_v69 : IVec S480000 1 := cmpi .sge main_arg2 main_v68
  let main_c_27 : IVec S_ 32 := constantI S_ 32 640000#32
  let main_v70 : IVec S480000 32 := broadcastInDim S480000 ![] bcast_S_S480000 main_c_27
  let main_v71 : IVec S480000 1 := cmpi .slt main_arg2 main_v70
  let main_v72 : IVec S480000 1 := andi main_v69 main_v71
  let main_c_28 : IVec S_ 1 := constantI S_ 1 1#1
  let main_v73 : IVec S_ 1 := (fun x v => Host.reduce IntOp.andi x v reducesTo_S480000_S_d0 h_S_) main_v72 main_c_28
  let main_v74 : IVec S_ 1 := andi main_v67 main_v73
  main_v74

def fn_part3 {F : FTy → Type} [FloatOps F] (main_arg0 : IVec S8000 32) (main_arg1 : IVec S60000 32) (main_arg2 : IVec S480000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_c_20 : IVec S_ 32 := constantI S_ 32 0#32
  let main_v54 : IVec S8000 32 := broadcastInDim S8000 ![] bcast_S_S8000 main_c_20
  let main_v55 : IVec S8000 1 := cmpi .sge main_arg0 main_v54
  let main_c_21 : IVec S_ 32 := constantI S_ 32 10000#32
  let main_v56 : IVec S8000 32 := broadcastInDim S8000 ![] bcast_S_S8000 main_c_21
  let main_v57 : IVec S8000 1 := cmpi .slt main_arg0 main_v56
  let main_v58 : IVec S8000 1 := andi main_v55 main_v57
  let main_c_22 : IVec S_ 1 := constantI S_ 1 1#1
  let main_v59 : IVec S_ 1 := (fun x v => Host.reduce IntOp.andi x v reducesTo_S8000_S_d0 h_S_) main_v58 main_c_22
  let main_v60 : IVec S_ 1 := andi main_v53 main_v59
  let main_c_23 : IVec S_ 32 := constantI S_ 32 0#32
  let main_v61 : IVec S60000 32 := broadcastInDim S60000 ![] bcast_S_S60000 main_c_23
  let main_v62 : IVec S60000 1 := cmpi .sge main_arg1 main_v61
  let main_c_24 : IVec S_ 32 := constantI S_ 32 80000#32
  let main_v63 : IVec S60000 32 := broadcastInDim S60000 ![] bcast_S_S60000 main_c_24
  let main_v64 : IVec S60000 1 := cmpi .slt main_arg1 main_v63
  let main_v65 : IVec S60000 1 := andi main_v62 main_v64
  let main_c_25 : IVec S_ 1 := constantI S_ 1 1#1
  let main_v66 : IVec S_ 1 := (fun x v => Host.reduce IntOp.andi x v reducesTo_S60000_S_d0 h_S_) main_v65 main_c_25
  let main_v67 : IVec S_ 1 := andi main_v60 main_v66
  fn_part4 (F := F) main_arg2 main_v67

def fn_part2 {F : FTy → Type} [FloatOps F] (main_arg0 : IVec S8000 32) (main_arg1 : IVec S60000 32) (main_arg2 : IVec S480000 32) (main_arg10 : FVec F S200x256 .f32) (main_arg11 : FVec F S16x256 .f32) (main_arg12 : FVec F S256 .f32) (main_arg13 : FVec F S256 .f32) (main_v33 : IVec S_ 1) : IVec S_ 1 :=
  let main_v34 : FVec F S200x256 .f32 := Host.absf main_arg10
  let main_cst_12 : FVec F S_ .f32 := constant S_ .f32 0x7F800000#32
  let main_v35 : FVec F S200x256 .f32 := broadcastInDim S200x256 ![] bcast_S_S200x256 main_cst_12
  let main_v36 : IVec S200x256 1 := cmpf .olt main_v34 main_v35
  let main_c_13 : IVec S_ 1 := constantI S_ 1 1#1
  let main_v37 : IVec S_ 1 := (fun x v => Host.reduce IntOp.andi x v reducesTo_S200x256_S_d0_1 h_S_) main_v36 main_c_13
  let main_v38 : IVec S_ 1 := andi main_v33 main_v37
  let main_v39 : FVec F S16x256 .f32 := Host.absf main_arg11
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg0 main_arg1 main_arg2 main_v48 main_v49 main_v50

def fn_part1 {F : FTy → Type} [FloatOps F] (main_arg0 : IVec S8000 32) (main_arg1 : IVec S60000 32) (main_arg2 : IVec S480000 32) (main_arg7 : FVec F S100x256 .f32) (main_arg8 : FVec F S8x256 .f32) (main_arg9 : FVec F S200x256 .f32) (main_arg10 : FVec F S200x256 .f32) (main_arg11 : FVec F S16x256 .f32) (main_arg12 : FVec F S256 .f32) (main_arg13 : FVec F S256 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S100x256 .f32 := Host.absf main_arg7
  let main_cst_6 : FVec F S_ .f32 := constant S_ .f32 0x7F800000#32
  let main_v20 : FVec F S100x256 .f32 := broadcastInDim S100x256 ![] bcast_S_S100x256 main_cst_6
  let main_v21 : IVec S100x256 1 := cmpf .olt main_v19 main_v20
  let main_c_7 : IVec S_ 1 := constantI S_ 1 1#1
  let main_v22 : IVec S_ 1 := (fun x v => Host.reduce IntOp.andi x v reducesTo_S100x256_S_d0_1 h_S_) main_v21 main_c_7
  let main_v23 : IVec S_ 1 := andi main_v18 main_v22
  let main_v24 : FVec F S8x256 .f32 := Host.absf main_arg8
  let main_cst_8 : FVec F S_ .f32 := constant S_ .f32 0x7F800000#32
  let main_v25 : FVec F S8x256 .f32 := broadcastInDim S8x256 ![] bcast_S_S8x256 main_cst_8
  let main_v26 : IVec S8x256 1 := cmpf .olt main_v24 main_v25
  let main_c_9 : IVec S_ 1 := constantI S_ 1 1#1
  let main_v27 : IVec S_ 1 := (fun x v => Host.reduce IntOp.andi x v reducesTo_S8x256_S_d0_1 h_S_) main_v26 main_c_9
  let main_v28 : IVec S_ 1 := andi main_v23 main_v27
  let main_v29 : FVec F S200x256 .f32 := Host.absf main_arg9
  let main_cst_10 : FVec F S_ .f32 := constant S_ .f32 0x7F800000#32
  let main_v30 : FVec F S200x256 .f32 := broadcastInDim S200x256 ![] bcast_S_S200x256 main_cst_10
  let main_v31 : IVec S200x256 1 := cmpf .olt main_v29 main_v30
  let main_c_11 : IVec S_ 1 := constantI S_ 1 1#1
  let main_v32 : IVec S_ 1 := (fun x v => Host.reduce IntOp.andi x v reducesTo_S200x256_S_d0_1 h_S_) main_v31 main_c_11
  let main_v33 : IVec S_ 1 := andi main_v28 main_v32
  fn_part2 (F := F) main_arg0 main_arg1 main_arg2 main_arg10 main_arg11 main_arg12 main_arg13 main_v33

def fn {F : FTy → Type} [FloatOps F] (main_arg0 : IVec S8000 32) (main_arg1 : IVec S60000 32) (main_arg2 : IVec S480000 32) (main_arg3 : FVec F S50x256 .f32) (main_arg4 : FVec F S50x256 .f32) (main_arg5 : FVec F S4x256 .f32) (main_arg6 : FVec F S100x256 .f32) (main_arg7 : FVec F S100x256 .f32) (main_arg8 : FVec F S8x256 .f32) (main_arg9 : FVec F S200x256 .f32) (main_arg10 : FVec F S200x256 .f32) (main_arg11 : FVec F S16x256 .f32) (main_arg12 : FVec F S256 .f32) (main_arg13 : FVec F S256 .f32) : IVec S_ 1 :=
  let main_v0 : FVec F S50x256 .f32 := Host.absf main_arg3
  let main_cst : FVec F S_ .f32 := constant S_ .f32 0x7F800000#32
  let main_v1 : FVec F S50x256 .f32 := broadcastInDim S50x256 ![] bcast_S_S50x256 main_cst
  let main_v2 : IVec S50x256 1 := cmpf .olt main_v0 main_v1
  let main_c : IVec S_ 1 := constantI S_ 1 1#1
  let main_v3 : IVec S_ 1 := (fun x v => Host.reduce IntOp.andi x v reducesTo_S50x256_S_d0_1 h_S_) main_v2 main_c
  let main_v4 : FVec F S50x256 .f32 := Host.absf main_arg4
  let main_cst_0 : FVec F S_ .f32 := constant S_ .f32 0x7F800000#32
  let main_v5 : FVec F S50x256 .f32 := broadcastInDim S50x256 ![] bcast_S_S50x256 main_cst_0
  let main_v6 : IVec S50x256 1 := cmpf .olt main_v4 main_v5
  let main_c_1 : IVec S_ 1 := constantI S_ 1 1#1
  let main_v7 : IVec S_ 1 := (fun x v => Host.reduce IntOp.andi x v reducesTo_S50x256_S_d0_1 h_S_) main_v6 main_c_1
  let main_v8 : IVec S_ 1 := andi main_v3 main_v7
  let main_v9 : FVec F S4x256 .f32 := Host.absf main_arg5
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S100x256 .f32 := Host.absf main_arg6
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg0 main_arg1 main_arg2 main_arg7 main_arg8 main_arg9 main_arg10 main_arg11 main_arg12 main_arg13 main_v13 main_v16
-- ==== Kernel.lean ====
abbrev S8000 : Shape := ⟨1, ![8000]⟩
abbrev S60000 : Shape := ⟨1, ![60000]⟩
abbrev S480000 : Shape := ⟨1, ![480000]⟩
abbrev S50x256 : Shape := ⟨2, ![50, 256]⟩
abbrev S4x256 : Shape := ⟨2, ![4, 256]⟩
abbrev S100x256 : Shape := ⟨2, ![100, 256]⟩
abbrev S8x256 : Shape := ⟨2, ![8, 256]⟩
abbrev S200x256 : Shape := ⟨2, ![200, 256]⟩
abbrev S16x256 : Shape := ⟨2, ![16, 256]⟩
abbrev S256 : Shape := ⟨1, ![256]⟩
abbrev S_ : Shape := ⟨0, ![]⟩
abbrev S548000 : Shape := ⟨1, ![548000]⟩
abbrev S728x256 : Shape := ⟨2, ![728, 256]⟩
abbrev S1x256 : Shape := ⟨2, ![1, 256]⟩
abbrev S548864 : Shape := ⟨1, ![548864]⟩
abbrev S548000x256 : Shape := ⟨2, ![548000, 256]⟩
abbrev S2048 : Shape := ⟨1, ![2048]⟩
abbrev S2048x256 : Shape := ⟨2, ![2048, 256]⟩
abbrev S104x256 : Shape := ⟨2, ![104, 256]⟩
abbrev S2048x104 : Shape := ⟨2, ![2048, 104]⟩
abbrev S2048x1 : Shape := ⟨2, ![2048, 1]⟩
abbrev S208x256 : Shape := ⟨2, ![208, 256]⟩
abbrev S2048x208 : Shape := ⟨2, ![2048, 208]⟩
abbrev S416x256 : Shape := ⟨2, ![416, 256]⟩
abbrev S2048x416 : Shape := ⟨2, ![2048, 416]⟩
abbrev S2048x728 : Shape := ⟨2, ![2048, 728]⟩

abbrev nBuf : Space → Nat
  | .hbm => 289
  | .vmem => 12
  | .smem => 0
  | _ => 0

abbrev hbmTy0_0 (i : Nat) : BufTy := match i % 128 with
  | 0 => ⟨S8000, .i32⟩
  | 1 => ⟨S60000, .i32⟩
  | 2 => ⟨S480000, .i32⟩
  | 3 => ⟨S50x256, .f32⟩
  | 4 => ⟨S50x256, .f32⟩
  | 5 => ⟨S4x256, .f32⟩
  | 6 => ⟨S100x256, .f32⟩
  | 7 => ⟨S100x256, .f32⟩
  | 8 => ⟨S8x256, .f32⟩
  | 9 => ⟨S200x256, .f32⟩
  | 10 => ⟨S200x256, .f32⟩
  | 11 => ⟨S16x256, .f32⟩
  | 12 => ⟨S256, .f32⟩
  | 13 => ⟨S256, .f32⟩
  | 14 => ⟨S_, .i32⟩
  | 15 => ⟨S_, .i32⟩
  | 16 => ⟨S_, .i32⟩
  | 17 => ⟨S8000, .i32⟩
  | 18 => ⟨S8000, .i32⟩
  | 19 => ⟨S_, .i32⟩
  | 20 => ⟨S8000, .i32⟩
  | 21 => ⟨S8000, .i32⟩
  | 22 => ⟨S_, .i32⟩
  | 23 => ⟨S_, .i32⟩
  | 24 => ⟨S8000, .i32⟩
  | 25 => ⟨S8000, .i32⟩
  | 26 => ⟨S8000, .i32⟩
  | 27 => ⟨S_, .i32⟩
  | 28 => ⟨S8000, .i32⟩
  | 29 => ⟨S8000, .i1⟩
  | 30 => ⟨S8000, .i32⟩
  | 31 => ⟨S8000, .i32⟩
  | 32 => ⟨S_, .i32⟩
  | 33 => ⟨S8000, .i32⟩
  | 34 => ⟨S8000, .i1⟩
  | 35 => ⟨S8000, .i1⟩
  | 36 => ⟨S_, .i32⟩
  | 37 => ⟨S8000, .i32⟩
  | 38 => ⟨S8000, .i32⟩
  | 39 => ⟨S8000, .i32⟩
  | 40 => ⟨S_, .i32⟩
  | 41 => ⟨S8000, .i32⟩
  | 42 => ⟨S8000, .i32⟩
  | 43 => ⟨S8000, .i32⟩
  | 44 => ⟨S_, .i32⟩
  | 45 => ⟨S_, .i32⟩
  | 46 => ⟨S8000, .i32⟩
  | 47 => ⟨S8000, .i32⟩
  | 48 => ⟨S8000, .i32⟩
  | 49 => ⟨S_, .i32⟩
  | 50 => ⟨S8000, .i32⟩
  | 51 => ⟨S8000, .i1⟩
  | 52 => ⟨S8000, .i32⟩
  | 53 => ⟨S8000, .i32⟩
  | 54 => ⟨S_, .i32⟩
  | 55 => ⟨S8000, .i32⟩
  | 56 => ⟨S8000, .i1⟩
  | 57 => ⟨S8000, .i1⟩
  | 58 => ⟨S_, .i32⟩
  | 59 => ⟨S8000, .i32⟩
  | 60 => ⟨S8000, .i32⟩
  | 61 => ⟨S8000, .i32⟩
  | 62 => ⟨S_, .i32⟩
  | 63 => ⟨S8000, .i32⟩
  | 64 => ⟨S8000, .i32⟩
  | 65 => ⟨S8000, .i32⟩
  | 66 => ⟨S_, .i32⟩
  | 67 => ⟨S_, .i32⟩
  | 68 => ⟨S_, .i32⟩
  | 69 => ⟨S8000, .i32⟩
  | 70 => ⟨S8000, .i32⟩
  | 71 => ⟨S_, .i32⟩
  | 72 => ⟨S8000, .i32⟩
  | 73 => ⟨S8000, .i32⟩
  | 74 => ⟨S_, .i32⟩
  | 75 => ⟨S_, .i32⟩
  | 76 => ⟨S_, .i32⟩
  | 77 => ⟨S8000, .i32⟩
  | 78 => ⟨S8000, .i32⟩
  | 79 => ⟨S_, .i32⟩
  | 80 => ⟨S8000, .i32⟩
  | 81 => ⟨S8000, .i32⟩
  | 82 => ⟨S_, .i32⟩
  | 83 => ⟨S_, .i32⟩
  | 84 => ⟨S_, .i32⟩
  | 85 => ⟨S8000, .i32⟩
  | 86 => ⟨S8000, .i32⟩
  | 87 => ⟨S_, .i32⟩
  | 88 => ⟨S8000, .i32⟩
  | 89 => ⟨S8000, .i32⟩
  | 90 => ⟨S_, .i32⟩
  | 91 => ⟨S_, .i32⟩
  | 92 => ⟨S_, .i32⟩
  | 93 => ⟨S60000, .i32⟩
  | 94 => ⟨S60000, .i32⟩
  | 95 => ⟨S_, .i32⟩
  | 96 => ⟨S60000, .i32⟩
  | 97 => ⟨S60000, .i32⟩
  | 98 => ⟨S_, .i32⟩
  | 99 => ⟨S_, .i32⟩
  | 100 => ⟨S60000, .i32⟩
  | 101 => ⟨S60000, .i32⟩
  | 102 => ⟨S60000, .i32⟩
  | 103 => ⟨S_, .i32⟩
  | 104 => ⟨S60000, .i32⟩
  | 105 => ⟨S60000, .i1⟩
  | 106 => ⟨S60000, .i32⟩
  | 107 => ⟨S60000, .i32⟩
  | 108 => ⟨S_, .i32⟩
  | 109 => ⟨S60000, .i32⟩
  | 110 => ⟨S60000, .i1⟩
  | 111 => ⟨S60000, .i1⟩
  | 112 => ⟨S_, .i32⟩
  | 113 => ⟨S60000, .i32⟩
  | 114 => ⟨S60000, .i32⟩
  | 115 => ⟨S60000, .i32⟩
  | 116 => ⟨S_, .i32⟩
  | 117 => ⟨S60000, .i32⟩
  | 118 => ⟨S60000, .i32⟩
  | 119 => ⟨S60000, .i32⟩
  | 120 => ⟨S_, .i32⟩
  | 121 => ⟨S_, .i32⟩
  | 122 => ⟨S60000, .i32⟩
  | 123 => ⟨S60000, .i32⟩
  | 124 => ⟨S60000, .i32⟩
  | 125 => ⟨S_, .i32⟩
  | 126 => ⟨S60000, .i32⟩
  | 127 => ⟨S60000, .i1⟩
  | _ => ⟨S8000, .i32⟩

abbrev hbmTy0_1 (i : Nat) : BufTy := match i % 128 with
  | 0 => ⟨S60000, .i32⟩
  | 1 => ⟨S60000, .i32⟩
  | 2 => ⟨S_, .i32⟩
  | 3 => ⟨S60000, .i32⟩
  | 4 => ⟨S60000, .i1⟩
  | 5 => ⟨S60000, .i1⟩
  | 6 => ⟨S_, .i32⟩
  | 7 => ⟨S60000, .i32⟩
  | 8 => ⟨S60000, .i32⟩
  | 9 => ⟨S60000, .i32⟩
  | 10 => ⟨S_, .i32⟩
  | 11 => ⟨S60000, .i32⟩
  | 12 => ⟨S60000, .i32⟩
  | 13 => ⟨S60000, .i32⟩
  | 14 => ⟨S_, .i32⟩
  | 15 => ⟨S_, .i32⟩
  | 16 => ⟨S_, .i32⟩
  | 17 => ⟨S60000, .i32⟩
  | 18 => ⟨S60000, .i32⟩
  | 19 => ⟨S_, .i32⟩
  | 20 => ⟨S60000, .i32⟩
  | 21 => ⟨S60000, .i32⟩
  | 22 => ⟨S_, .i32⟩
  | 23 => ⟨S_, .i32⟩
  | 24 => ⟨S_, .i32⟩
  | 25 => ⟨S60000, .i32⟩
  | 26 => ⟨S60000, .i32⟩
  | 27 => ⟨S_, .i32⟩
  | 28 => ⟨S60000, .i32⟩
  | 29 => ⟨S60000, .i32⟩
  | 30 => ⟨S_, .i32⟩
  | 31 => ⟨S_, .i32⟩
  | 32 => ⟨S_, .i32⟩
  | 33 => ⟨S60000, .i32⟩
  | 34 => ⟨S60000, .i32⟩
  | 35 => ⟨S_, .i32⟩
  | 36 => ⟨S60000, .i32⟩
  | 37 => ⟨S60000, .i32⟩
  | 38 => ⟨S_, .i32⟩
  | 39 => ⟨S_, .i32⟩
  | 40 => ⟨S_, .i32⟩
  | 41 => ⟨S480000, .i32⟩
  | 42 => ⟨S480000, .i32⟩
  | 43 => ⟨S_, .i32⟩
  | 44 => ⟨S480000, .i32⟩
  | 45 => ⟨S480000, .i32⟩
  | 46 => ⟨S_, .i32⟩
  | 47 => ⟨S_, .i32⟩
  | 48 => ⟨S480000, .i32⟩
  | 49 => ⟨S480000, .i32⟩
  | 50 => ⟨S480000, .i32⟩
  | 51 => ⟨S_, .i32⟩
  | 52 => ⟨S480000, .i32⟩
  | 53 => ⟨S480000, .i1⟩
  | 54 => ⟨S480000, .i32⟩
  | 55 => ⟨S480000, .i32⟩
  | 56 => ⟨S_, .i32⟩
  | 57 => ⟨S480000, .i32⟩
  | 58 => ⟨S480000, .i1⟩
  | 59 => ⟨S480000, .i1⟩
  | 60 => ⟨S_, .i32⟩
  | 61 => ⟨S480000, .i32⟩
  | 62 => ⟨S480000, .i32⟩
  | 63 => ⟨S480000, .i32⟩
  | 64 => ⟨S_, .i32⟩
  | 65 => ⟨S480000, .i32⟩
  | 66 => ⟨S480000, .i32⟩
  | 67 => ⟨S480000, .i32⟩
  | 68 => ⟨S_, .i32⟩
  | 69 => ⟨S_, .i32⟩
  | 70 => ⟨S480000, .i32⟩
  | 71 => ⟨S480000, .i32⟩
  | 72 => ⟨S480000, .i32⟩
  | 73 => ⟨S_, .i32⟩
  | 74 => ⟨S480000, .i32⟩
  | 75 => ⟨S480000, .i1⟩
  | 76 => ⟨S480000, .i32⟩
  | 77 => ⟨S480000, .i32⟩
  | 78 => ⟨S_, .i32⟩
  | 79 => ⟨S480000, .i32⟩
  | 80 => ⟨S480000, .i1⟩
  | 81 => ⟨S480000, .i1⟩
  | 82 => ⟨S_, .i32⟩
  | 83 => ⟨S480000, .i32⟩
  | 84 => ⟨S480000, .i32⟩
  | 85 => ⟨S480000, .i32⟩
  | 86 => ⟨S_, .i32⟩
  | 87 => ⟨S480000, .i32⟩
  | 88 => ⟨S480000, .i32⟩
  | 89 => ⟨S480000, .i32⟩
  | 90 => ⟨S_, .i32⟩
  | 91 => ⟨S_, .i32⟩
  | 92 => ⟨S_, .i32⟩
  | 93 => ⟨S480000, .i32⟩
  | 94 => ⟨S480000, .i32⟩
  | 95 => ⟨S_, .i32⟩
  | 96 => ⟨S480000, .i32⟩
  | 97 => ⟨S480000, .i32⟩
  | 98 => ⟨S_, .i32⟩
  | 99 => ⟨S_, .i32⟩
  | 100 => ⟨S_, .i32⟩
  | 101 => ⟨S480000, .i32⟩
  | 102 => ⟨S480000, .i32⟩
  | 103 => ⟨S_, .i32⟩
  | 104 => ⟨S480000, .i32⟩
  | 105 => ⟨S480000, .i32⟩
  | 106 => ⟨S_, .i32⟩
  | 107 => ⟨S_, .i32⟩
  | 108 => ⟨S_, .i32⟩
  | 109 => ⟨S480000, .i32⟩
  | 110 => ⟨S480000, .i32⟩
  | 111 => ⟨S_, .i32⟩
  | 112 => ⟨S480000, .i32⟩
  | 113 => ⟨S480000, .i32⟩
  | 114 => ⟨S_, .i32⟩
  | 115 => ⟨S8000, .i32⟩
  | 116 => ⟨S8000, .i32⟩
  | 117 => ⟨S_, .i32⟩
  | 118 => ⟨S60000, .i32⟩
  | 119 => ⟨S60000, .i32⟩
  | 120 => ⟨S_, .i32⟩
  | 121 => ⟨S480000, .i32⟩
  | 122 => ⟨S480000, .i32⟩
  | 123 => ⟨S548000, .i32⟩
  | 124 => ⟨S_, .i32⟩
  | 125 => ⟨S8000, .i32⟩
  | 126 => ⟨S8000, .i32⟩
  | 127 => ⟨S_, .i32⟩
  | _ => ⟨S8000, .i32⟩

abbrev hbmTy0_2 (i : Nat) : BufTy := match i % 128 with
  | 0 => ⟨S60000, .i32⟩
  | 1 => ⟨S60000, .i32⟩
  | 2 => ⟨S_, .i32⟩
  | 3 => ⟨S480000, .i32⟩
  | 4 => ⟨S480000, .i32⟩
  | 5 => ⟨S548000, .i32⟩
  | 6 => ⟨S_, .i32⟩
  | 7 => ⟨S8000, .i32⟩
  | 8 => ⟨S8000, .i32⟩
  | 9 => ⟨S_, .i32⟩
  | 10 => ⟨S60000, .i32⟩
  | 11 => ⟨S60000, .i32⟩
  | 12 => ⟨S_, .i32⟩
  | 13 => ⟨S480000, .i32⟩
  | 14 => ⟨S480000, .i32⟩
  | 15 => ⟨S548000, .i32⟩
  | 16 => ⟨S728x256, .f32⟩
  | 17 => ⟨S1x256, .f32⟩
  | 18 => ⟨S1x256, .f32⟩
  | 19 => ⟨S_, .i32⟩
  | 20 => ⟨S_, .i32⟩
  | 21 => ⟨S548864, .i32⟩
  | 22 => ⟨S_, .i32⟩
  | 23 => ⟨S_, .i32⟩
  | 24 => ⟨S548864, .i32⟩
  | 25 => ⟨S_, .i32⟩
  | 26 => ⟨S_, .i32⟩
  | 27 => ⟨S548864, .i32⟩
  | 28 => ⟨S728x256, .bf16⟩
  | 29 => ⟨S728x256, .f32⟩
  | 30 => ⟨S728x256, .f32⟩
  | 31 => ⟨S728x256, .bf16⟩
  | 32 => ⟨S548000x256, .f32⟩
  | _ => ⟨S8000, .i32⟩

abbrev hbmTy (i : Nat) : BufTy := match i / 128 with
  | 0 => hbmTy0_0 i
  | 1 => hbmTy0_1 i
  | 2 => hbmTy0_2 i
  | _ => ⟨S8000, .i32⟩

abbrev bufTy : (tb : Table) → Fin (tcTables nBuf tb) → BufTy
  | .hbm, ⟨i, _⟩ => hbmTy i
  | .local _ .vmem, ⟨0, _⟩ => ⟨S2048, .i32⟩
  | .local _ .vmem, ⟨1, _⟩ => ⟨S2048, .i32⟩
  | .local _ .vmem, ⟨2, _⟩ => ⟨S2048, .i32⟩
  | .local _ .vmem, ⟨3, _⟩ => ⟨S2048, .i32⟩
  | .local _ .vmem, ⟨4, _⟩ => ⟨S2048, .i32⟩
  | .local _ .vmem, ⟨5, _⟩ => ⟨S2048, .i32⟩
  | .local _ .vmem, ⟨6, _⟩ => ⟨S728x256, .bf16⟩
  | .local _ .vmem, ⟨7, _⟩ => ⟨S728x256, .bf16⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | _, _ => ⟨S8000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v1 : Ref sig .tc := ⟨.hbm, 39, rfl⟩
abbrev main_c_2 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c_3 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v5 : Ref sig .tc := ⟨.hbm, 61, rfl⟩
abbrev main_c_4 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_c_5 : Ref sig .tc := ⟨.hbm, 66, rfl⟩
abbrev main_c_6 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v9 : Ref sig .tc := ⟨.hbm, 73, rfl⟩
abbrev main_c_7 : Ref sig .tc := ⟨.hbm, 74, rfl⟩
abbrev main_c_8 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_call4_v3 : Ref sig .tc := ⟨.hbm, 79, rfl⟩
abbrev main_call4_v4 : Ref sig .tc := ⟨.hbm, 80, rfl⟩
abbrev main_v10 : Ref sig .tc := ⟨.hbm, 81, rfl⟩
abbrev main_c_9 : Ref sig .tc := ⟨.hbm, 82, rfl⟩
abbrev main_c_10 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v11 : Ref sig .tc := ⟨.hbm, 89, rfl⟩
abbrev main_c_11 : Ref sig .tc := ⟨.hbm, 90, rfl⟩
abbrev main_c_12 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_v12 : Ref sig .tc := ⟨.hbm, 97, rfl⟩
abbrev main_c_13 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_v5 : Ref sig .tc := ⟨.hbm, 104, rfl⟩
abbrev main_call7_v6 : Ref sig .tc := ⟨.hbm, 105, rfl⟩
abbrev main_call7_v7 : Ref sig .tc := ⟨.hbm, 106, rfl⟩
abbrev main_call7_v8 : Ref sig .tc := ⟨.hbm, 107, rfl⟩
abbrev main_call7_c : Ref sig .tc := ⟨.hbm, 108, rfl⟩
abbrev main_call7_v9 : Ref sig .tc := ⟨.hbm, 109, rfl⟩
abbrev main_call7_v10 : Ref sig .tc := ⟨.hbm, 110, rfl⟩
abbrev main_call7_v11 : Ref sig .tc := ⟨.hbm, 111, rfl⟩
abbrev main_call7_c_0 : Ref sig .tc := ⟨.hbm, 112, rfl⟩
abbrev main_call7_v12 : Ref sig .tc := ⟨.hbm, 113, rfl⟩
abbrev main_call7_v13 : Ref sig .tc := ⟨.hbm, 114, rfl⟩
abbrev main_v13 : Ref sig .tc := ⟨.hbm, 115, rfl⟩
abbrev main_c_14 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_c_15 : Ref sig .tc := ⟨.hbm, 120, rfl⟩
abbrev main_call8_v0 : Ref sig .tc := ⟨.hbm, 121, rfl⟩
abbrev main_call8_v1 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_call8_v5 : Ref sig .tc := ⟨.hbm, 126, rfl⟩
abbrev main_call8_v6 : Ref sig .tc := ⟨.hbm, 127, rfl⟩
abbrev main_call8_v7 : Ref sig .tc := ⟨.hbm, 128, rfl⟩
abbrev main_call8_v8 : Ref sig .tc := ⟨.hbm, 129, rfl⟩
abbrev main_call8_c : Ref sig .tc := ⟨.hbm, 130, rfl⟩
abbrev main_call8_v9 : Ref sig .tc := ⟨.hbm, 131, rfl⟩
abbrev main_call8_v10 : Ref sig .tc := ⟨.hbm, 132, rfl⟩
abbrev main_call8_v11 : Ref sig .tc := ⟨.hbm, 133, rfl⟩
abbrev main_call8_c_0 : Ref sig .tc := ⟨.hbm, 134, rfl⟩
abbrev main_call8_v12 : Ref sig .tc := ⟨.hbm, 135, rfl⟩
abbrev main_call8_v13 : Ref sig .tc := ⟨.hbm, 136, rfl⟩
abbrev main_v17 : Ref sig .tc := ⟨.hbm, 137, rfl⟩
abbrev main_c_16 : Ref sig .tc := ⟨.hbm, 138, rfl⟩
abbrev main_v18 : Ref sig .tc := ⟨.hbm, 139, rfl⟩
abbrev main_v19 : Ref sig .tc := ⟨.hbm, 140, rfl⟩
abbrev main_v20 : Ref sig .tc := ⟨.hbm, 141, rfl⟩
abbrev main_c_17 : Ref sig .tc := ⟨.hbm, 142, rfl⟩
abbrev main_c_18 : Ref sig .tc := ⟨.hbm, 143, rfl⟩
abbrev main_call9_v0 : Ref sig .tc := ⟨.hbm, 144, rfl⟩
abbrev main_call9_v1 : Ref sig .tc := ⟨.hbm, 145, rfl⟩
abbrev main_call9_v2 : Ref sig .tc := ⟨.hbm, 146, rfl⟩
abbrev main_call9_v3 : Ref sig .tc := ⟨.hbm, 147, rfl⟩
abbrev main_call9_v4 : Ref sig .tc := ⟨.hbm, 148, rfl⟩
abbrev main_v21 : Ref sig .tc := ⟨.hbm, 149, rfl⟩
abbrev main_c_19 : Ref sig .tc := ⟨.hbm, 150, rfl⟩
abbrev main_c_20 : Ref sig .tc := ⟨.hbm, 151, rfl⟩
abbrev main_call10_v0 : Ref sig .tc := ⟨.hbm, 152, rfl⟩
abbrev main_call10_v1 : Ref sig .tc := ⟨.hbm, 153, rfl⟩
abbrev main_call10_v2 : Ref sig .tc := ⟨.hbm, 154, rfl⟩
abbrev main_call10_v3 : Ref sig .tc := ⟨.hbm, 155, rfl⟩
abbrev main_call10_v4 : Ref sig .tc := ⟨.hbm, 156, rfl⟩
abbrev main_v22 : Ref sig .tc := ⟨.hbm, 157, rfl⟩
abbrev main_c_21 : Ref sig .tc := ⟨.hbm, 158, rfl⟩
abbrev main_c_22 : Ref sig .tc := ⟨.hbm, 159, rfl⟩
abbrev main_call11_v0 : Ref sig .tc := ⟨.hbm, 160, rfl⟩
abbrev main_call11_v1 : Ref sig .tc := ⟨.hbm, 161, rfl⟩
abbrev main_call11_v2 : Ref sig .tc := ⟨.hbm, 162, rfl⟩
abbrev main_call11_v3 : Ref sig .tc := ⟨.hbm, 163, rfl⟩
abbrev main_call11_v4 : Ref sig .tc := ⟨.hbm, 164, rfl⟩
abbrev main_v23 : Ref sig .tc := ⟨.hbm, 165, rfl⟩
abbrev main_c_23 : Ref sig .tc := ⟨.hbm, 166, rfl⟩
abbrev main_c_24 : Ref sig .tc := ⟨.hbm, 167, rfl⟩
abbrev main_call12_v0 : Ref sig .tc := ⟨.hbm, 168, rfl⟩
abbrev main_call12_v1 : Ref sig .tc := ⟨.hbm, 169, rfl⟩
abbrev main_call12_v2 : Ref sig .tc := ⟨.hbm, 170, rfl⟩
abbrev main_call12_v3 : Ref sig .tc := ⟨.hbm, 171, rfl⟩
abbrev main_call12_v4 : Ref sig .tc := ⟨.hbm, 172, rfl⟩
abbrev main_v24 : Ref sig .tc := ⟨.hbm, 173, rfl⟩
abbrev main_c_25 : Ref sig .tc := ⟨.hbm, 174, rfl⟩
abbrev main_call13_v0 : Ref sig .tc := ⟨.hbm, 175, rfl⟩
abbrev main_call13_v1 : Ref sig .tc := ⟨.hbm, 176, rfl⟩
abbrev main_call13_v2 : Ref sig .tc := ⟨.hbm, 177, rfl⟩
abbrev main_call13_v3 : Ref sig .tc := ⟨.hbm, 178, rfl⟩
abbrev main_call13_v4 : Ref sig .tc := ⟨.hbm, 179, rfl⟩
abbrev main_call13_v5 : Ref sig .tc := ⟨.hbm, 180, rfl⟩
abbrev main_call13_v6 : Ref sig .tc := ⟨.hbm, 181, rfl⟩
abbrev main_call13_v7 : Ref sig .tc := ⟨.hbm, 182, rfl⟩
abbrev main_call13_v8 : Ref sig .tc := ⟨.hbm, 183, rfl⟩
abbrev main_call13_c : Ref sig .tc := ⟨.hbm, 184, rfl⟩
abbrev main_call13_v9 : Ref sig .tc := ⟨.hbm, 185, rfl⟩
abbrev main_call13_v10 : Ref sig .tc := ⟨.hbm, 186, rfl⟩
abbrev main_call13_v11 : Ref sig .tc := ⟨.hbm, 187, rfl⟩
abbrev main_call13_c_0 : Ref sig .tc := ⟨.hbm, 188, rfl⟩
abbrev main_call13_v12 : Ref sig .tc := ⟨.hbm, 189, rfl⟩
abbrev main_call13_v13 : Ref sig .tc := ⟨.hbm, 190, rfl⟩
abbrev main_v25 : Ref sig .tc := ⟨.hbm, 191, rfl⟩
abbrev main_c_26 : Ref sig .tc := ⟨.hbm, 192, rfl⟩
abbrev main_v26 : Ref sig .tc := ⟨.hbm, 193, rfl⟩
abbrev main_v27 : Ref sig .tc := ⟨.hbm, 194, rfl⟩
abbrev main_v28 : Ref sig .tc := ⟨.hbm, 195, rfl⟩
abbrev main_c_27 : Ref sig .tc := ⟨.hbm, 196, rfl⟩
abbrev main_call14_v0 : Ref sig .tc := ⟨.hbm, 197, rfl⟩
abbrev main_call14_v1 : Ref sig .tc := ⟨.hbm, 198, rfl⟩
abbrev main_call14_v2 : Ref sig .tc := ⟨.hbm, 199, rfl⟩
abbrev main_call14_v3 : Ref sig .tc := ⟨.hbm, 200, rfl⟩
abbrev main_call14_v4 : Ref sig .tc := ⟨.hbm, 201, rfl⟩
abbrev main_call14_v5 : Ref sig .tc := ⟨.hbm, 202, rfl⟩
abbrev main_call14_v6 : Ref sig .tc := ⟨.hbm, 203, rfl⟩
abbrev main_call14_v7 : Ref sig .tc := ⟨.hbm, 204, rfl⟩
abbrev main_call14_v8 : Ref sig .tc := ⟨.hbm, 205, rfl⟩
abbrev main_call14_c : Ref sig .tc := ⟨.hbm, 206, rfl⟩
abbrev main_call14_v9 : Ref sig .tc := ⟨.hbm, 207, rfl⟩
abbrev main_call14_v10 : Ref sig .tc := ⟨.hbm, 208, rfl⟩
abbrev main_call14_v11 : Ref sig .tc := ⟨.hbm, 209, rfl⟩
abbrev main_call14_c_0 : Ref sig .tc := ⟨.hbm, 210, rfl⟩
abbrev main_call14_v12 : Ref sig .tc := ⟨.hbm, 211, rfl⟩
abbrev main_call14_v13 : Ref sig .tc := ⟨.hbm, 212, rfl⟩
abbrev main_v29 : Ref sig .tc := ⟨.hbm, 213, rfl⟩
abbrev main_c_28 : Ref sig .tc := ⟨.hbm, 214, rfl⟩
abbrev main_v30 : Ref sig .tc := ⟨.hbm, 215, rfl⟩
abbrev main_v31 : Ref sig .tc := ⟨.hbm, 216, rfl⟩
abbrev main_v32 : Ref sig .tc := ⟨.hbm, 217, rfl⟩
abbrev main_c_29 : Ref sig .tc := ⟨.hbm, 218, rfl⟩
abbrev main_c_30 : Ref sig .tc := ⟨.hbm, 219, rfl⟩
abbrev main_call15_v0 : Ref sig .tc := ⟨.hbm, 220, rfl⟩
abbrev main_call15_v1 : Ref sig .tc := ⟨.hbm, 221, rfl⟩
abbrev main_call15_v2 : Ref sig .tc := ⟨.hbm, 222, rfl⟩
abbrev main_call15_v3 : Ref sig .tc := ⟨.hbm, 223, rfl⟩
abbrev main_call15_v4 : Ref sig .tc := ⟨.hbm, 224, rfl⟩
abbrev main_v33 : Ref sig .tc := ⟨.hbm, 225, rfl⟩
abbrev main_c_31 : Ref sig .tc := ⟨.hbm, 226, rfl⟩
abbrev main_c_32 : Ref sig .tc := ⟨.hbm, 227, rfl⟩
abbrev main_call16_v0 : Ref sig .tc := ⟨.hbm, 228, rfl⟩
abbrev main_call16_v1 : Ref sig .tc := ⟨.hbm, 229, rfl⟩
abbrev main_call16_v2 : Ref sig .tc := ⟨.hbm, 230, rfl⟩
abbrev main_call16_v3 : Ref sig .tc := ⟨.hbm, 231, rfl⟩
abbrev main_call16_v4 : Ref sig .tc := ⟨.hbm, 232, rfl⟩
abbrev main_v34 : Ref sig .tc := ⟨.hbm, 233, rfl⟩
abbrev main_c_33 : Ref sig .tc := ⟨.hbm, 234, rfl⟩
abbrev main_c_34 : Ref sig .tc := ⟨.hbm, 235, rfl⟩
abbrev main_call17_v0 : Ref sig .tc := ⟨.hbm, 236, rfl⟩
abbrev main_call17_v1 : Ref sig .tc := ⟨.hbm, 237, rfl⟩
abbrev main_call17_v2 : Ref sig .tc := ⟨.hbm, 238, rfl⟩
abbrev main_call17_v3 : Ref sig .tc := ⟨.hbm, 239, rfl⟩
abbrev main_call17_v4 : Ref sig .tc := ⟨.hbm, 240, rfl⟩
abbrev main_v35 : Ref sig .tc := ⟨.hbm, 241, rfl⟩
abbrev main_c_35 : Ref sig .tc := ⟨.hbm, 242, rfl⟩
abbrev main_v36 : Ref sig .tc := ⟨.hbm, 243, rfl⟩
abbrev main_v37 : Ref sig .tc := ⟨.hbm, 244, rfl⟩
abbrev main_c_36 : Ref sig .tc := ⟨.hbm, 245, rfl⟩
abbrev main_v38 : Ref sig .tc := ⟨.hbm, 246, rfl⟩
abbrev main_v39 : Ref sig .tc := ⟨.hbm, 247, rfl⟩
abbrev main_c_37 : Ref sig .tc := ⟨.hbm, 248, rfl⟩
abbrev main_v40 : Ref sig .tc := ⟨.hbm, 249, rfl⟩
abbrev main_v41 : Ref sig .tc := ⟨.hbm, 250, rfl⟩
abbrev main_v42 : Ref sig .tc := ⟨.hbm, 251, rfl⟩
abbrev main_c_38 : Ref sig .tc := ⟨.hbm, 252, rfl⟩
abbrev main_v43 : Ref sig .tc := ⟨.hbm, 253, rfl⟩
abbrev main_v44 : Ref sig .tc := ⟨.hbm, 254, rfl⟩
abbrev main_c_39 : Ref sig .tc := ⟨.hbm, 255, rfl⟩
abbrev main_v45 : Ref sig .tc := ⟨.hbm, 256, rfl⟩
abbrev main_v46 : Ref sig .tc := ⟨.hbm, 257, rfl⟩
abbrev main_c_40 : Ref sig .tc := ⟨.hbm, 258, rfl⟩
abbrev main_v47 : Ref sig .tc := ⟨.hbm, 259, rfl⟩
abbrev main_v48 : Ref sig .tc := ⟨.hbm, 260, rfl⟩
abbrev main_v49 : Ref sig .tc := ⟨.hbm, 261, rfl⟩
abbrev main_c_41 : Ref sig .tc := ⟨.hbm, 262, rfl⟩
abbrev main_v50 : Ref sig .tc := ⟨.hbm, 263, rfl⟩
abbrev main_v51 : Ref sig .tc := ⟨.hbm, 264, rfl⟩
abbrev main_c_42 : Ref sig .tc := ⟨.hbm, 265, rfl⟩
abbrev main_v52 : Ref sig .tc := ⟨.hbm, 266, rfl⟩
abbrev main_v53 : Ref sig .tc := ⟨.hbm, 267, rfl⟩
abbrev main_c_43 : Ref sig .tc := ⟨.hbm, 268, rfl⟩
abbrev main_v54 : Ref sig .tc := ⟨.hbm, 269, rfl⟩
abbrev main_v55 : Ref sig .tc := ⟨.hbm, 270, rfl⟩
abbrev main_v56 : Ref sig .tc := ⟨.hbm, 271, rfl⟩
abbrev main_v57 : Ref sig .tc := ⟨.hbm, 272, rfl⟩
abbrev main_v58 : Ref sig .tc := ⟨.hbm, 273, rfl⟩
abbrev main_v59 : Ref sig .tc := ⟨.hbm, 274, rfl⟩
abbrev main_c_44 : Ref sig .tc := ⟨.hbm, 275, rfl⟩
abbrev main_call18_v0 : Ref sig .tc := ⟨.hbm, 276, rfl⟩
abbrev main_v60 : Ref sig .tc := ⟨.hbm, 277, rfl⟩
abbrev main_c_45 : Ref sig .tc := ⟨.hbm, 278, rfl⟩
abbrev main_call19_v0 : Ref sig .tc := ⟨.hbm, 279, rfl⟩
abbrev main_v61 : Ref sig .tc := ⟨.hbm, 280, rfl⟩
abbrev main_c_46 : Ref sig .tc := ⟨.hbm, 281, rfl⟩
abbrev main_call20_v0 : Ref sig .tc := ⟨.hbm, 282, rfl⟩
abbrev main_v62 : Ref sig .tc := ⟨.hbm, 283, rfl⟩
abbrev main_v63 : Ref sig .tc := ⟨.hbm, 284, rfl⟩
abbrev main_v64 : Ref sig .tc := ⟨.hbm, 285, rfl⟩
abbrev main_v65 : Ref sig .tc := ⟨.hbm, 286, rfl⟩
abbrev main_v66 : Ref sig .tc := ⟨.hbm, 287, rfl⟩
abbrev main_v67 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![268], ![false]⟩

def k0_cond1 (i : grid0.Coords) : BitVec 1 :=
  let arg0 : BitVec 32 := BitVec.ofNat 32 (i 0).val
  let c0_i32 : BitVec 32 := 0#32
  let v10 : BitVec 1 := Scalar.cmpi .sge arg0 c0_i32
  let c2_i32 : BitVec 32 := 2#32
  let v11 : BitVec 1 := Scalar.cmpi .sle arg0 c2_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond2 (i : grid0.Coords) : BitVec 1 :=
  let arg0 : BitVec 32 := BitVec.ofNat 32 (i 0).val
  let c4_i32 : BitVec 32 := 4#32
  let v15 : BitVec 1 := Scalar.cmpi .sge arg0 c4_i32
  let c32_i32 : BitVec 32 := 32#32
  let v16 : BitVec 1 := Scalar.cmpi .sle arg0 c32_i32
  let v17 : BitVec 1 := Scalar.andi v15 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c34_i32 : BitVec 32 := 34#32
  let v20 : BitVec 1 := Scalar.cmpi .sge arg0 c34_i32
  let c267_i32 : BitVec 32 := 267#32
  let v21 : BitVec 1 := Scalar.cmpi .sle arg0 c267_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond4 (i : grid0.Coords) : BitVec 1 :=
  let arg0 : BitVec 32 := BitVec.ofNat 32 (i 0).val
  let c3_i32 : BitVec 32 := 3#32
  let v25 : BitVec 1 := Scalar.cmpi .eq arg0 c3_i32
  let c33_i32 : BitVec 32 := 33#32
  let v26 : BitVec 1 := Scalar.cmpi .eq arg0 c33_i32
  let v27 : BitVec 1 := Scalar.ori v25 v26
  let v28 : BitVec 32 := Scalar.extui v27
  let c0_i32_9 : BitVec 32 := 0#32
  let v29 : BitVec 1 := Scalar.cmpi .ne v28 c0_i32_9
  v29

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S728x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S728x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8000 : S_.BroadcastsInDim S8000 (![] : Fin 0 → Fin S8000.rank)
  bcast_S_S60000 : S_.BroadcastsInDim S60000 (![] : Fin 0 → Fin S60000.rank)
  bcast_S_S480000 : S_.BroadcastsInDim S480000 (![] : Fin 0 → Fin S480000.rank)
  concatenates_S8000_S60000_S480000_S548000_d0 : Shape.Concatenates [S8000, S60000, S480000] S548000 0
  concatenates_S50x256_S50x256_S4x256_S100x256_S100x256_S8x256_S200x256_S200x256_S16x256_S728x256_d0 : Shape.Concatenates [S50x256, S50x256, S4x256, S100x256, S100x256, S8x256, S200x256, S200x256, S16x256] S728x256 0
  shapeCasts_S256_S1x256 : S256.ShapeCasts S1x256
  pads_S548000_S548864_08640 : S548000.Pads (![0] : Fin 1 → Nat) ![864] ![0] S548864
  h_S_ : 0 < S_.numel
  bitsLt_bf16_f32 : FTy.bits .bf16 < FTy.bits .f32
  inb_S2048_S2048_0 : ∀ a, (![0] : Fin 1 → Nat) a + S2048.size a ≤ S2048.size a
  h_S2048 : 0 < S2048.numel
  shapeCasts_S2048_S2048 : S2048.ShapeCasts S2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S728x256_S104x256_0_0 : ∀ a, (![0, 0] : Fin 2 → Nat) a + S104x256.size a ≤ S728x256.size a
  h_S104x256 : 0 < S104x256.numel
  shapeCasts_S104x256_S104x256 : S104x256.ShapeCasts S104x256
  iota_S2048x104_d1_w32 : S2048x104.Iotas .tc 32 [1]
  shapeCasts_S2048_S2048x1 : S2048.ShapeCasts S2048x1
  broadcasts_S2048x1_S2048x104 : S2048x1.Broadcasts S2048x104
  natLt_1_32 : 1 < 32
  reduces_S2048x256_S2048 : S2048x256.Reduces [1] S2048
  broadcasts_S2048x1_S2048x256 : S2048x1.Broadcasts S2048x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  inb_S728x256_S208x256_104_0 : ∀ a, (![104, 0] : Fin 2 → Nat) a + S208x256.size a ≤ S728x256.size a
  h_S208x256 : 0 < S208x256.numel
  shapeCasts_S208x256_S208x256 : S208x256.ShapeCasts S208x256
  iota_S2048x208_d1_w32 : S2048x208.Iotas .tc 32 [1]
  broadcasts_S2048x1_S2048x208 : S2048x1.Broadcasts S2048x208
  inb_S728x256_S416x256_312_0 : ∀ a, (![312, 0] : Fin 2 → Nat) a + S416x256.size a ≤ S728x256.size a
  h_S416x256 : 0 < S416x256.numel
  shapeCasts_S416x256_S416x256 : S416x256.ShapeCasts S416x256
  iota_S2048x416_d1_w32 : S2048x416.Iotas .tc 32 [1]
  broadcasts_S2048x1_S2048x416 : S2048x1.Broadcasts S2048x416
  inb_S728x256_S728x256_0_0 : ∀ a, (![0, 0] : Fin 2 → Nat) a + S728x256.size a ≤ S728x256.size a
  h_S728x256 : 0 < S728x256.numel
  shapeCasts_S728x256_S728x256 : S728x256.ShapeCasts S728x256
  iota_S2048x728_d1_w32 : S2048x728.Iotas .tc 32 [1]
  broadcasts_S2048x1_S2048x728 : S2048x1.Broadcasts S2048x728
  dot_S2048x104_S104x256_S2048x256_1_0_0_1_n_n_wf : DotDims.WF S2048x104 S104x256 S2048x256 [1] [0] [0] [1] [] []
  dot_S2048x208_S208x256_S2048x256_1_0_0_1_n_n_wf : DotDims.WF S2048x208 S208x256 S2048x256 [1] [0] [0] [1] [] []
  dot_S2048x416_S416x256_S2048x256_1_0_0_1_n_n_wf : DotDims.WF S2048x416 S416x256 S2048x256 [1] [0] [0] [1] [] []
  dot_S2048x728_S728x256_S2048x256_1_0_0_1_n_n_wf : DotDims.WF S2048x728 S728x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S548864.size a
  hwx0_0 : ∀ i : grid0.Coords, EltTy.bits .i32 = 32 ∨ (Rect.block (s := S548864) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S548864.size a
  hwx0_1 : ∀ i : grid0.Coords, EltTy.bits .i32 = 32 ∨ (Rect.block (s := S548864) S2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S548864.size a
  hwx0_2 : ∀ i : grid0.Coords, EltTy.bits .i32 = 32 ∨ (Rect.block (s := S548864) S2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S728x256.size a ≤ S728x256.size a
  hwx0_3 : ∀ i : grid0.Coords, EltTy.bits .bf16 = 32 ∨ (Rect.block (s := S728x256) S728x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S728x256.size a ≤ S728x256.size a
  hwx0_4 : ∀ i : grid0.Coords, EltTy.bits .bf16 = 32 ∨ (Rect.block (s := S728x256) S728x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S2048x256.size a < S548000x256.size a
  hwx0_7 : ∀ i : grid0.Coords, EltTy.bits .f32 = 32 ∨ (Rect.unit (s := S548000x256) (fun a => cc0_transform_7 i a * S2048x256.size a) (fun a => (Pipeline.Clip.of (cc0_transform_7 i a) (S2048x256.size a) (S548000x256.size a)).extent (S2048x256.size a)) fun a => Pipeline.Clip.inb (Pipeline.Clip.ok_of (hstart0_7 i a))).WholeWords (EltTy.packing .f32)
  hwxs0_7 : ∀ i : grid0.Coords, EltTy.bits .f32 = 32 ∨ (Rect.unit (s := S2048x256) (fun _ => 0) (fun a => (Pipeline.Clip.of (cc0_transform_7 i a) (S2048x256.size a) (S548000x256.size a)).extent (S2048x256.size a)) fun a => (Nat.zero_add _).trans_le (Pipeline.Clip.extent_le (Pipeline.Clip.ok_of (hstart0_7 i a)))).WholeWords (EltTy.packing .f32)

variable [Facts₀]

def dot_S2048x104_S104x256_S2048x256_1_0_0_1_n_n : DotDims S2048x104 S104x256 S2048x256 where
  lhsContracting := [1]
  rhsContracting := [0]
  lhsNonContracting := [0]
  rhsNonContracting := [1]
  lhsBatch := []
  rhsBatch := []
  wf := dot_S2048x104_S104x256_S2048x256_1_0_0_1_n_n_wf
def dot_S2048x208_S208x256_S2048x256_1_0_0_1_n_n : DotDims S2048x208 S208x256 S2048x256 where
  lhsContracting := [1]
  rhsContracting := [0]
  lhsNonContracting := [0]
  rhsNonContracting := [1]
  lhsBatch := []
  rhsBatch := []
  wf := dot_S2048x208_S208x256_S2048x256_1_0_0_1_n_n_wf
def dot_S2048x416_S416x256_S2048x256_1_0_0_1_n_n : DotDims S2048x416 S416x256 S2048x256 where
  lhsContracting := [1]
  rhsContracting := [0]
  lhsNonContracting := [0]
  rhsNonContracting := [1]
  lhsBatch := []
  rhsBatch := []
  wf := dot_S2048x416_S416x256_S2048x256_1_0_0_1_n_n_wf
def dot_S2048x728_S728x256_S2048x256_1_0_0_1_n_n : DotDims S2048x728 S728x256 S2048x256 where
  lhsContracting := [1]
  rhsContracting := [0]
  lhsNonContracting := [0]
  rhsNonContracting := [1]
  lhsBatch := []
  rhsBatch := []
  wf := dot_S2048x728_S728x256_S2048x256_1_0_0_1_n_n_wf

abbrev win0_0 : Pipeline.Window sig grid0 :=
  Pipeline.Window.ofSpec (Memref.whole main_v60) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v63) S728x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S728x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v58) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v67) S2048x256.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) && !(k0_cond3 i == 1#1) && !(k0_cond4 i == 1#1) | ⟨_ + 8, h⟩ => absurd h (Nat.not_lt.2 (Nat.le_add_left _ _))

class Facts : Prop extends Facts₀ where

variable [Facts]
-- ==== ReferenceIdeal.lean ====
abbrev S8000 : Shape := ⟨1, ![8000]⟩
abbrev S60000 : Shape := ⟨1, ![60000]⟩
abbrev S480000 : Shape := ⟨1, ![480000]⟩
abbrev S50x256 : Shape := ⟨2, ![50, 256]⟩
abbrev S4x256 : Shape := ⟨2, ![4, 256]⟩
abbrev S100x256 : Shape := ⟨2, ![100, 256]⟩
abbrev S8x256 : Shape := ⟨2, ![8, 256]⟩
abbrev S200x256 : Shape := ⟨2, ![200, 256]⟩
abbrev S16x256 : Shape := ⟨2, ![16, 256]⟩
abbrev S256 : Shape := ⟨1, ![256]⟩
abbrev S_ : Shape := ⟨0, ![]⟩
abbrev S8000x1 : Shape := ⟨2, ![8000, 1]⟩
abbrev S8000x256 : Shape := ⟨2, ![8000, 256]⟩
abbrev S60000x1 : Shape := ⟨2, ![60000, 1]⟩
abbrev S60000x256 : Shape := ⟨2, ![60000, 256]⟩
abbrev S480000x1 : Shape := ⟨2, ![480000, 1]⟩
abbrev S480000x256 : Shape := ⟨2, ![480000, 256]⟩
abbrev S548000x256 : Shape := ⟨2, ![548000, 256]⟩
abbrev S548000 : Shape := ⟨1, ![548000]⟩
abbrev S548000x1 : Shape := ⟨2, ![548000, 1]⟩
abbrev S1x256 : Shape := ⟨2, ![1, 256]⟩

abbrev nBuf : Space → Nat
  | .hbm => 371
  | .vmem => 0
  | .smem => 0
  | _ => 0

abbrev hbmTy0_0 (i : Nat) : BufTy := match i % 128 with
  | 0 => ⟨S8000, .i32⟩
  | 1 => ⟨S60000, .i32⟩
  | 2 => ⟨S480000, .i32⟩
  | 3 => ⟨S50x256, .f32⟩
  | 4 => ⟨S50x256, .f32⟩
  | 5 => ⟨S4x256, .f32⟩
  | 6 => ⟨S100x256, .f32⟩
  | 7 => ⟨S100x256, .f32⟩
  | 8 => ⟨S8x256, .f32⟩
  | 9 => ⟨S200x256, .f32⟩
  | 10 => ⟨S200x256, .f32⟩
  | 11 => ⟨S16x256, .f32⟩
  | 12 => ⟨S256, .f32⟩
  | 13 => ⟨S256, .f32⟩
  | 14 => ⟨S_, .i32⟩
  | 15 => ⟨S_, .i32⟩
  | 16 => ⟨S8000, .i32⟩
  | 17 => ⟨S8000, .i32⟩
  | 18 => ⟨S8000, .i32⟩
  | 19 => ⟨S_, .i32⟩
  | 20 => ⟨S8000, .i32⟩
  | 21 => ⟨S8000, .i1⟩
  | 22 => ⟨S8000, .i32⟩
  | 23 => ⟨S8000, .i32⟩
  | 24 => ⟨S_, .i32⟩
  | 25 => ⟨S8000, .i32⟩
  | 26 => ⟨S8000, .i1⟩
  | 27 => ⟨S8000, .i1⟩
  | 28 => ⟨S_, .i32⟩
  | 29 => ⟨S8000, .i32⟩
  | 30 => ⟨S8000, .i32⟩
  | 31 => ⟨S8000, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8000, .i32⟩
  | 39 => ⟨S8000, .i32⟩
  | 40 => ⟨S_, .i32⟩
  | 41 => ⟨S8000, .i32⟩
  | 42 => ⟨S8000, .i1⟩
  | 43 => ⟨S_, .i32⟩
  | 44 => ⟨S8000, .i32⟩
  | 45 => ⟨S8000, .i1⟩
  | 46 => ⟨S_, .i32⟩
  | 47 => ⟨S_, .i1⟩
  | 48 => ⟨S8000, .i1⟩
  | 49 => ⟨S8000, .i1⟩
  | 50 => ⟨S8000, .i1⟩
  | 51 => ⟨S8000, .i32⟩
  | 52 => ⟨S8000, .i32⟩
  | 53 => ⟨S8000, .i32⟩
  | 54 => ⟨S_, .i32⟩
  | 55 => ⟨S_, .i32⟩
  | 56 => ⟨S8000, .i32⟩
  | 57 => ⟨S8000, .i32⟩
  | 58 => ⟨S8000, .i32⟩
  | 59 => ⟨S_, .i32⟩
  | 60 => ⟨S8000, .i32⟩
  | 61 => ⟨S8000, .i1⟩
  | 62 => ⟨S8000, .i32⟩
  | 63 => ⟨S8000, .i32⟩
  | 64 => ⟨S_, .i32⟩
  | 65 => ⟨S8000, .i32⟩
  | 66 => ⟨S8000, .i1⟩
  | 67 => ⟨S8000, .i1⟩
  | 68 => ⟨S_, .i32⟩
  | 69 => ⟨S8000, .i32⟩
  | 70 => ⟨S8000, .i32⟩
  | 71 => ⟨S8000, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S8000, .i32⟩
  | 79 => ⟨S8000, .i32⟩
  | 80 => ⟨S_, .i32⟩
  | 81 => ⟨S8000, .i32⟩
  | 82 => ⟨S8000, .i1⟩
  | 83 => ⟨S_, .i32⟩
  | 84 => ⟨S8000, .i32⟩
  | 85 => ⟨S8000, .i1⟩
  | 86 => ⟨S_, .i32⟩
  | 87 => ⟨S_, .i1⟩
  | 88 => ⟨S8000, .i1⟩
  | 89 => ⟨S8000, .i1⟩
  | 90 => ⟨S8000, .i1⟩
  | 91 => ⟨S8000, .i32⟩
  | 92 => ⟨S8000, .i32⟩
  | 93 => ⟨S8000, .i32⟩
  | 94 => ⟨S_, .i32⟩
  | 95 => ⟨S8000, .i32⟩
  | 96 => ⟨S8000, .i1⟩
  | 97 => ⟨S_, .i32⟩
  | 98 => ⟨S8000, .i32⟩
  | 99 => ⟨S8000, .i32⟩
  | 100 => ⟨S8000, .i32⟩
  | 101 => ⟨S8000x1, .i32⟩
  | 102 => ⟨S8000x256, .f32⟩
  | 103 => ⟨S_, .i32⟩
  | 104 => ⟨S8000, .i32⟩
  | 105 => ⟨S8000, .i1⟩
  | 106 => ⟨S_, .i32⟩
  | 107 => ⟨S8000, .i32⟩
  | 108 => ⟨S8000, .i32⟩
  | 109 => ⟨S8000, .i32⟩
  | 110 => ⟨S8000x1, .i32⟩
  | 111 => ⟨S8000x256, .f32⟩
  | 112 => ⟨S8000x256, .f32⟩
  | 113 => ⟨S_, .i32⟩
  | 114 => ⟨S8000, .i32⟩
  | 115 => ⟨S8000, .i1⟩
  | 116 => ⟨S_, .i32⟩
  | 117 => ⟨S8000, .i32⟩
  | 118 => ⟨S8000, .i32⟩
  | 119 => ⟨S8000, .i32⟩
  | 120 => ⟨S8000x1, .i32⟩
  | 121 => ⟨S8000x256, .f32⟩
  | 122 => ⟨S8000x256, .f32⟩
  | 123 => ⟨S_, .i32⟩
  | 124 => ⟨S_, .i32⟩
  | 125 => ⟨S60000, .i32⟩
  | 126 => ⟨S60000, .i32⟩
  | 127 => ⟨S60000, .i32⟩
  | _ => ⟨S8000, .i32⟩

abbrev hbmTy0_1 (i : Nat) : BufTy := match i % 128 with
  | 0 => ⟨S_, .i32⟩
  | 1 => ⟨S60000, .i32⟩
  | 2 => ⟨S60000, .i1⟩
  | 3 => ⟨S60000, .i32⟩
  | 4 => ⟨S60000, .i32⟩
  | 5 => ⟨S_, .i32⟩
  | 6 => ⟨S60000, .i32⟩
  | 7 => ⟨S60000, .i1⟩
  | 8 => ⟨S60000, .i1⟩
  | 9 => ⟨S_, .i32⟩
  | 10 => ⟨S60000, .i32⟩
  | 11 => ⟨S60000, .i32⟩
  | 12 => ⟨S60000, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S60000, .i32⟩
  | 20 => ⟨S60000, .i32⟩
  | 21 => ⟨S_, .i32⟩
  | 22 => ⟨S60000, .i32⟩
  | 23 => ⟨S60000, .i1⟩
  | 24 => ⟨S_, .i32⟩
  | 25 => ⟨S60000, .i32⟩
  | 26 => ⟨S60000, .i1⟩
  | 27 => ⟨S_, .i32⟩
  | 28 => ⟨S_, .i1⟩
  | 29 => ⟨S60000, .i1⟩
  | 30 => ⟨S60000, .i1⟩
  | 31 => ⟨S60000, .i1⟩
  | 32 => ⟨S60000, .i32⟩
  | 33 => ⟨S60000, .i32⟩
  | 34 => ⟨S60000, .i32⟩
  | 35 => ⟨S_, .i32⟩
  | 36 => ⟨S_, .i32⟩
  | 37 => ⟨S60000, .i32⟩
  | 38 => ⟨S60000, .i32⟩
  | 39 => ⟨S60000, .i32⟩
  | 40 => ⟨S_, .i32⟩
  | 41 => ⟨S60000, .i32⟩
  | 42 => ⟨S60000, .i1⟩
  | 43 => ⟨S60000, .i32⟩
  | 44 => ⟨S60000, .i32⟩
  | 45 => ⟨S_, .i32⟩
  | 46 => ⟨S60000, .i32⟩
  | 47 => ⟨S60000, .i1⟩
  | 48 => ⟨S60000, .i1⟩
  | 49 => ⟨S_, .i32⟩
  | 50 => ⟨S60000, .i32⟩
  | 51 => ⟨S60000, .i32⟩
  | 52 => ⟨S60000, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S60000, .i32⟩
  | 60 => ⟨S60000, .i32⟩
  | 61 => ⟨S_, .i32⟩
  | 62 => ⟨S60000, .i32⟩
  | 63 => ⟨S60000, .i1⟩
  | 64 => ⟨S_, .i32⟩
  | 65 => ⟨S60000, .i32⟩
  | 66 => ⟨S60000, .i1⟩
  | 67 => ⟨S_, .i32⟩
  | 68 => ⟨S_, .i1⟩
  | 69 => ⟨S60000, .i1⟩
  | 70 => ⟨S60000, .i1⟩
  | 71 => ⟨S60000, .i1⟩
  | 72 => ⟨S60000, .i32⟩
  | 73 => ⟨S60000, .i32⟩
  | 74 => ⟨S60000, .i32⟩
  | 75 => ⟨S_, .i32⟩
  | 76 => ⟨S60000, .i32⟩
  | 77 => ⟨S60000, .i1⟩
  | 78 => ⟨S_, .i32⟩
  | 79 => ⟨S60000, .i32⟩
  | 80 => ⟨S60000, .i32⟩
  | 81 => ⟨S60000, .i32⟩
  | 82 => ⟨S60000x1, .i32⟩
  | 83 => ⟨S60000x256, .f32⟩
  | 84 => ⟨S_, .i32⟩
  | 85 => ⟨S60000, .i32⟩
  | 86 => ⟨S60000, .i1⟩
  | 87 => ⟨S_, .i32⟩
  | 88 => ⟨S60000, .i32⟩
  | 89 => ⟨S60000, .i32⟩
  | 90 => ⟨S60000, .i32⟩
  | 91 => ⟨S60000x1, .i32⟩
  | 92 => ⟨S60000x256, .f32⟩
  | 93 => ⟨S60000x256, .f32⟩
  | 94 => ⟨S_, .i32⟩
  | 95 => ⟨S60000, .i32⟩
  | 96 => ⟨S60000, .i1⟩
  | 97 => ⟨S_, .i32⟩
  | 98 => ⟨S60000, .i32⟩
  | 99 => ⟨S60000, .i32⟩
  | 100 => ⟨S60000, .i32⟩
  | 101 => ⟨S60000x1, .i32⟩
  | 102 => ⟨S60000x256, .f32⟩
  | 103 => ⟨S60000x256, .f32⟩
  | 104 => ⟨S_, .i32⟩
  | 105 => ⟨S_, .i32⟩
  | 106 => ⟨S480000, .i32⟩
  | 107 => ⟨S480000, .i32⟩
  | 108 => ⟨S480000, .i32⟩
  | 109 => ⟨S_, .i32⟩
  | 110 => ⟨S480000, .i32⟩
  | 111 => ⟨S480000, .i1⟩
  | 112 => ⟨S480000, .i32⟩
  | 113 => ⟨S480000, .i32⟩
  | 114 => ⟨S_, .i32⟩
  | 115 => ⟨S480000, .i32⟩
  | 116 => ⟨S480000, .i1⟩
  | 117 => ⟨S480000, .i1⟩
  | 118 => ⟨S_, .i32⟩
  | 119 => ⟨S480000, .i32⟩
  | 120 => ⟨S480000, .i32⟩
  | 121 => ⟨S480000, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8000, .i32⟩

abbrev hbmTy0_2 (i : Nat) : BufTy := match i % 128 with
  | 0 => ⟨S480000, .i32⟩
  | 1 => ⟨S480000, .i32⟩
  | 2 => ⟨S_, .i32⟩
  | 3 => ⟨S480000, .i32⟩
  | 4 => ⟨S480000, .i1⟩
  | 5 => ⟨S_, .i32⟩
  | 6 => ⟨S480000, .i32⟩
  | 7 => ⟨S480000, .i1⟩
  | 8 => ⟨S_, .i32⟩
  | 9 => ⟨S_, .i1⟩
  | 10 => ⟨S480000, .i1⟩
  | 11 => ⟨S480000, .i1⟩
  | 12 => ⟨S480000, .i1⟩
  | 13 => ⟨S480000, .i32⟩
  | 14 => ⟨S480000, .i32⟩
  | 15 => ⟨S480000, .i32⟩
  | 16 => ⟨S_, .i32⟩
  | 17 => ⟨S_, .i32⟩
  | 18 => ⟨S480000, .i32⟩
  | 19 => ⟨S480000, .i32⟩
  | 20 => ⟨S480000, .i32⟩
  | 21 => ⟨S_, .i32⟩
  | 22 => ⟨S480000, .i32⟩
  | 23 => ⟨S480000, .i1⟩
  | 24 => ⟨S480000, .i32⟩
  | 25 => ⟨S480000, .i32⟩
  | 26 => ⟨S_, .i32⟩
  | 27 => ⟨S480000, .i32⟩
  | 28 => ⟨S480000, .i1⟩
  | 29 => ⟨S480000, .i1⟩
  | 30 => ⟨S_, .i32⟩
  | 31 => ⟨S480000, .i32⟩
  | 32 => ⟨S480000, .i32⟩
  | 33 => ⟨S480000, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S480000, .i32⟩
  | 41 => ⟨S480000, .i32⟩
  | 42 => ⟨S_, .i32⟩
  | 43 => ⟨S480000, .i32⟩
  | 44 => ⟨S480000, .i1⟩
  | 45 => ⟨S_, .i32⟩
  | 46 => ⟨S480000, .i32⟩
  | 47 => ⟨S480000, .i1⟩
  | 48 => ⟨S_, .i32⟩
  | 49 => ⟨S_, .i1⟩
  | 50 => ⟨S480000, .i1⟩
  | 51 => ⟨S480000, .i1⟩
  | 52 => ⟨S480000, .i1⟩
  | 53 => ⟨S480000, .i32⟩
  | 54 => ⟨S480000, .i32⟩
  | 55 => ⟨S480000, .i32⟩
  | 56 => ⟨S_, .i32⟩
  | 57 => ⟨S480000, .i32⟩
  | 58 => ⟨S480000, .i1⟩
  | 59 => ⟨S_, .i32⟩
  | 60 => ⟨S480000, .i32⟩
  | 61 => ⟨S480000, .i32⟩
  | 62 => ⟨S480000, .i32⟩
  | 63 => ⟨S480000x1, .i32⟩
  | 64 => ⟨S480000x256, .f32⟩
  | 65 => ⟨S_, .i32⟩
  | 66 => ⟨S480000, .i32⟩
  | 67 => ⟨S480000, .i1⟩
  | 68 => ⟨S_, .i32⟩
  | 69 => ⟨S480000, .i32⟩
  | 70 => ⟨S480000, .i32⟩
  | 71 => ⟨S480000, .i32⟩
  | 72 => ⟨S480000x1, .i32⟩
  | 73 => ⟨S480000x256, .f32⟩
  | 74 => ⟨S480000x256, .f32⟩
  | 75 => ⟨S_, .i32⟩
  | 76 => ⟨S480000, .i32⟩
  | 77 => ⟨S480000, .i1⟩
  | 78 => ⟨S_, .i32⟩
  | 79 => ⟨S480000, .i32⟩
  | 80 => ⟨S480000, .i32⟩
  | 81 => ⟨S480000, .i32⟩
  | 82 => ⟨S480000x1, .i32⟩
  | 83 => ⟨S480000x256, .f32⟩
  | 84 => ⟨S480000x256, .f32⟩
  | 85 => ⟨S548000x256, .f32⟩
  | 86 => ⟨S_, .f32⟩
  | 87 => ⟨S548000, .f32⟩
  | 88 => ⟨S548000x1, .f32⟩
  | 89 => ⟨S_, .f32⟩
  | 90 => ⟨S548000x1, .f32⟩
  | 91 => ⟨S548000x1, .f32⟩
  | 92 => ⟨S548000x256, .f32⟩
  | 93 => ⟨S548000x256, .f32⟩
  | 94 => ⟨S548000x256, .f32⟩
  | 95 => ⟨S_, .f32⟩
  | 96 => ⟨S548000, .f32⟩
  | 97 => ⟨S548000x1, .f32⟩
  | 98 => ⟨S_, .f32⟩
  | 99 => ⟨S548000x1, .f32⟩
  | 100 => ⟨S548000x1, .f32⟩
  | 101 => ⟨S548000x256, .f32⟩
  | 102 => ⟨S548000x256, .f32⟩
  | 103 => ⟨S_, .f32⟩
  | 104 => ⟨S548000x1, .f32⟩
  | 105 => ⟨S548000x1, .f32⟩
  | 106 => ⟨S548000x1, .f32⟩
  | 107 => ⟨S548000x256, .f32⟩
  | 108 => ⟨S548000x256, .f32⟩
  | 109 => ⟨S1x256, .f32⟩
  | 110 => ⟨S548000x256, .f32⟩
  | 111 => ⟨S548000x256, .f32⟩
  | 112 => ⟨S1x256, .f32⟩
  | 113 => ⟨S548000x256, .f32⟩
  | 114 => ⟨S548000x256, .f32⟩
  | _ => ⟨S8000, .i32⟩

abbrev hbmTy (i : Nat) : BufTy := match i / 128 with
  | 0 => hbmTy0_0 i
  | 1 => hbmTy0_1 i
  | 2 => hbmTy0_2 i
  | _ => ⟨S8000, .i32⟩

abbrev bufTy : (tb : Table) → Fin (tcTables nBuf tb) → BufTy
  | .hbm, ⟨i, _⟩ => hbmTy i
  | _, _ => ⟨S8000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v0 : Ref sig .tc := ⟨.hbm, 31, rfl⟩
abbrev main_c_0 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v1 : Ref sig .tc := ⟨.hbm, 53, rfl⟩
abbrev main_c_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v2 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v3 : Ref sig .tc := ⟨.hbm, 93, rfl⟩
abbrev main_c_3 : Ref sig .tc := ⟨.hbm, 94, rfl⟩
abbrev main_v4 : Ref sig .tc := ⟨.hbm, 95, rfl⟩
abbrev main_v5 : Ref sig .tc := ⟨.hbm, 96, rfl⟩
abbrev main_c_4 : Ref sig .tc := ⟨.hbm, 97, rfl⟩
abbrev main_v6 : Ref sig .tc := ⟨.hbm, 98, rfl⟩
abbrev main_v7 : Ref sig .tc := ⟨.hbm, 99, rfl⟩
abbrev main_v8 : Ref sig .tc := ⟨.hbm, 100, rfl⟩
abbrev main_v9 : Ref sig .tc := ⟨.hbm, 101, rfl⟩
abbrev main_v10 : Ref sig .tc := ⟨.hbm, 102, rfl⟩
abbrev main_c_5 : Ref sig .tc := ⟨.hbm, 103, rfl⟩
abbrev main_v11 : Ref sig .tc := ⟨.hbm, 104, rfl⟩
abbrev main_v12 : Ref sig .tc := ⟨.hbm, 105, rfl⟩
abbrev main_c_6 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_v17 : Ref sig .tc := ⟨.hbm, 111, rfl⟩
abbrev main_v18 : Ref sig .tc := ⟨.hbm, 112, rfl⟩
abbrev main_c_7 : Ref sig .tc := ⟨.hbm, 113, rfl⟩
abbrev main_v19 : Ref sig .tc := ⟨.hbm, 114, rfl⟩
abbrev main_v20 : Ref sig .tc := ⟨.hbm, 115, rfl⟩
abbrev main_c_8 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_c_9 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_c : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_0 : Ref sig .tc := ⟨.hbm, 137, rfl⟩
abbrev main_call4_v12 : Ref sig .tc := ⟨.hbm, 138, rfl⟩
abbrev main_call4_v13 : Ref sig .tc := ⟨.hbm, 139, rfl⟩
abbrev main_v27 : Ref sig .tc := ⟨.hbm, 140, rfl⟩
abbrev main_c_10 : Ref sig .tc := ⟨.hbm, 141, rfl⟩
abbrev main_call5_v0 : Ref sig .tc := ⟨.hbm, 142, rfl⟩
abbrev main_call5_c : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_c_1 : Ref sig .tc := ⟨.hbm, 149, rfl⟩
abbrev main_call5_v5 : Ref sig .tc := ⟨.hbm, 150, rfl⟩
abbrev main_call5_v6 : Ref sig .tc := ⟨.hbm, 151, rfl⟩
abbrev main_call5_c_2 : Ref sig .tc := ⟨.hbm, 152, rfl⟩
abbrev main_call5_v7 : Ref sig .tc := ⟨.hbm, 153, rfl⟩
abbrev main_call5_v8 : Ref sig .tc := ⟨.hbm, 154, rfl⟩
abbrev main_call5_c_3 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_v28 : Ref sig .tc := ⟨.hbm, 162, rfl⟩
abbrev main_c_11 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_v6 : Ref sig .tc := ⟨.hbm, 170, rfl⟩
abbrev main_call6_v7 : Ref sig .tc := ⟨.hbm, 171, rfl⟩
abbrev main_call6_v8 : Ref sig .tc := ⟨.hbm, 172, rfl⟩
abbrev main_call6_c : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_c_0 : Ref sig .tc := ⟨.hbm, 177, rfl⟩
abbrev main_call6_v12 : Ref sig .tc := ⟨.hbm, 178, rfl⟩
abbrev main_call6_v13 : Ref sig .tc := ⟨.hbm, 179, rfl⟩
abbrev main_v29 : Ref sig .tc := ⟨.hbm, 180, rfl⟩
abbrev main_c_12 : Ref sig .tc := ⟨.hbm, 181, rfl⟩
abbrev main_call7_v0 : Ref sig .tc := ⟨.hbm, 182, rfl⟩
abbrev main_call7_c : Ref sig .tc := ⟨.hbm, 183, rfl⟩
abbrev main_call7_v1 : Ref sig .tc := ⟨.hbm, 184, rfl⟩
abbrev main_call7_c_0 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_c_1 : Ref sig .tc := ⟨.hbm, 189, rfl⟩
abbrev main_call7_v5 : Ref sig .tc := ⟨.hbm, 190, rfl⟩
abbrev main_call7_v6 : Ref sig .tc := ⟨.hbm, 191, rfl⟩
abbrev main_call7_c_2 : Ref sig .tc := ⟨.hbm, 192, rfl⟩
abbrev main_call7_v7 : Ref sig .tc := ⟨.hbm, 193, rfl⟩
abbrev main_call7_v8 : Ref sig .tc := ⟨.hbm, 194, rfl⟩
abbrev main_call7_c_3 : Ref sig .tc := ⟨.hbm, 195, rfl⟩
abbrev main_call7_v9 : Ref sig .tc := ⟨.hbm, 196, rfl⟩
abbrev main_call7_v10 : Ref sig .tc := ⟨.hbm, 197, rfl⟩
abbrev main_call7_v11 : Ref sig .tc := ⟨.hbm, 198, rfl⟩
abbrev main_call7_v12 : Ref sig .tc := ⟨.hbm, 199, rfl⟩
abbrev main_call7_v13 : Ref sig .tc := ⟨.hbm, 200, rfl⟩
abbrev main_call7_v14 : Ref sig .tc := ⟨.hbm, 201, rfl⟩
abbrev main_v30 : Ref sig .tc := ⟨.hbm, 202, rfl⟩
abbrev main_c_13 : Ref sig .tc := ⟨.hbm, 203, rfl⟩
abbrev main_v31 : Ref sig .tc := ⟨.hbm, 204, rfl⟩
abbrev main_v32 : Ref sig .tc := ⟨.hbm, 205, rfl⟩
abbrev main_c_14 : Ref sig .tc := ⟨.hbm, 206, rfl⟩
abbrev main_v33 : Ref sig .tc := ⟨.hbm, 207, rfl⟩
abbrev main_v34 : Ref sig .tc := ⟨.hbm, 208, rfl⟩
abbrev main_v35 : Ref sig .tc := ⟨.hbm, 209, rfl⟩
abbrev main_v36 : Ref sig .tc := ⟨.hbm, 210, rfl⟩
abbrev main_v37 : Ref sig .tc := ⟨.hbm, 211, rfl⟩
abbrev main_c_15 : Ref sig .tc := ⟨.hbm, 212, rfl⟩
abbrev main_v38 : Ref sig .tc := ⟨.hbm, 213, rfl⟩
abbrev main_v39 : Ref sig .tc := ⟨.hbm, 214, rfl⟩
abbrev main_c_16 : Ref sig .tc := ⟨.hbm, 215, rfl⟩
abbrev main_v40 : Ref sig .tc := ⟨.hbm, 216, rfl⟩
abbrev main_v41 : Ref sig .tc := ⟨.hbm, 217, rfl⟩
abbrev main_v42 : Ref sig .tc := ⟨.hbm, 218, rfl⟩
abbrev main_v43 : Ref sig .tc := ⟨.hbm, 219, rfl⟩
abbrev main_v44 : Ref sig .tc := ⟨.hbm, 220, rfl⟩
abbrev main_v45 : Ref sig .tc := ⟨.hbm, 221, rfl⟩
abbrev main_c_17 : Ref sig .tc := ⟨.hbm, 222, rfl⟩
abbrev main_v46 : Ref sig .tc := ⟨.hbm, 223, rfl⟩
abbrev main_v47 : Ref sig .tc := ⟨.hbm, 224, rfl⟩
abbrev main_c_18 : Ref sig .tc := ⟨.hbm, 225, rfl⟩
abbrev main_v48 : Ref sig .tc := ⟨.hbm, 226, rfl⟩
abbrev main_v49 : Ref sig .tc := ⟨.hbm, 227, rfl⟩
abbrev main_v50 : Ref sig .tc := ⟨.hbm, 228, rfl⟩
abbrev main_v51 : Ref sig .tc := ⟨.hbm, 229, rfl⟩
abbrev main_v52 : Ref sig .tc := ⟨.hbm, 230, rfl⟩
abbrev main_v53 : Ref sig .tc := ⟨.hbm, 231, rfl⟩
abbrev main_c_19 : Ref sig .tc := ⟨.hbm, 232, rfl⟩
abbrev main_call8_v0 : Ref sig .tc := ⟨.hbm, 233, rfl⟩
abbrev main_call8_v1 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_call8_v5 : Ref sig .tc := ⟨.hbm, 238, rfl⟩
abbrev main_call8_v6 : Ref sig .tc := ⟨.hbm, 239, rfl⟩
abbrev main_call8_v7 : Ref sig .tc := ⟨.hbm, 240, rfl⟩
abbrev main_call8_v8 : Ref sig .tc := ⟨.hbm, 241, rfl⟩
abbrev main_call8_c : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_c_0 : Ref sig .tc := ⟨.hbm, 246, rfl⟩
abbrev main_call8_v12 : Ref sig .tc := ⟨.hbm, 247, rfl⟩
abbrev main_call8_v13 : Ref sig .tc := ⟨.hbm, 248, rfl⟩
abbrev main_v54 : Ref sig .tc := ⟨.hbm, 249, rfl⟩
abbrev main_c_20 : Ref sig .tc := ⟨.hbm, 250, rfl⟩
abbrev main_call9_v0 : Ref sig .tc := ⟨.hbm, 251, rfl⟩
abbrev main_call9_c : Ref sig .tc := ⟨.hbm, 252, rfl⟩
abbrev main_call9_v1 : Ref sig .tc := ⟨.hbm, 253, rfl⟩
abbrev main_call9_c_0 : Ref sig .tc := ⟨.hbm, 254, rfl⟩
abbrev main_call9_v2 : Ref sig .tc := ⟨.hbm, 255, rfl⟩
abbrev main_call9_v3 : Ref sig .tc := ⟨.hbm, 256, rfl⟩
abbrev main_call9_v4 : Ref sig .tc := ⟨.hbm, 257, rfl⟩
abbrev main_call9_c_1 : Ref sig .tc := ⟨.hbm, 258, rfl⟩
abbrev main_call9_v5 : Ref sig .tc := ⟨.hbm, 259, rfl⟩
abbrev main_call9_v6 : Ref sig .tc := ⟨.hbm, 260, rfl⟩
abbrev main_call9_c_2 : Ref sig .tc := ⟨.hbm, 261, rfl⟩
abbrev main_call9_v7 : Ref sig .tc := ⟨.hbm, 262, rfl⟩
abbrev main_call9_v8 : Ref sig .tc := ⟨.hbm, 263, rfl⟩
abbrev main_call9_c_3 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_v12 : Ref sig .tc := ⟨.hbm, 268, rfl⟩
abbrev main_call9_v13 : Ref sig .tc := ⟨.hbm, 269, rfl⟩
abbrev main_call9_v14 : Ref sig .tc := ⟨.hbm, 270, rfl⟩
abbrev main_v55 : Ref sig .tc := ⟨.hbm, 271, rfl⟩
abbrev main_c_21 : Ref sig .tc := ⟨.hbm, 272, rfl⟩
abbrev main_call10_v0 : Ref sig .tc := ⟨.hbm, 273, rfl⟩
abbrev main_call10_v1 : Ref sig .tc := ⟨.hbm, 274, rfl⟩
abbrev main_call10_v2 : Ref sig .tc := ⟨.hbm, 275, rfl⟩
abbrev main_call10_v3 : Ref sig .tc := ⟨.hbm, 276, rfl⟩
abbrev main_call10_v4 : Ref sig .tc := ⟨.hbm, 277, rfl⟩
abbrev main_call10_v5 : Ref sig .tc := ⟨.hbm, 278, rfl⟩
abbrev main_call10_v6 : Ref sig .tc := ⟨.hbm, 279, rfl⟩
abbrev main_call10_v7 : Ref sig .tc := ⟨.hbm, 280, rfl⟩
abbrev main_call10_v8 : Ref sig .tc := ⟨.hbm, 281, rfl⟩
abbrev main_call10_c : Ref sig .tc := ⟨.hbm, 282, rfl⟩
abbrev main_call10_v9 : Ref sig .tc := ⟨.hbm, 283, rfl⟩
abbrev main_call10_v10 : Ref sig .tc := ⟨.hbm, 284, rfl⟩
abbrev main_call10_v11 : Ref sig .tc := ⟨.hbm, 285, rfl⟩
abbrev main_call10_c_0 : Ref sig .tc := ⟨.hbm, 286, rfl⟩
abbrev main_call10_v12 : Ref sig .tc := ⟨.hbm, 287, rfl⟩
abbrev main_call10_v13 : Ref sig .tc := ⟨.hbm, 288, rfl⟩
abbrev main_v56 : Ref sig .tc := ⟨.hbm, 289, rfl⟩
abbrev main_c_22 : Ref sig .tc := ⟨.hbm, 290, rfl⟩
abbrev main_call11_v0 : Ref sig .tc := ⟨.hbm, 291, rfl⟩
abbrev main_call11_c : Ref sig .tc := ⟨.hbm, 292, rfl⟩
abbrev main_call11_v1 : Ref sig .tc := ⟨.hbm, 293, rfl⟩
abbrev main_call11_c_0 : Ref sig .tc := ⟨.hbm, 294, rfl⟩
abbrev main_call11_v2 : Ref sig .tc := ⟨.hbm, 295, rfl⟩
abbrev main_call11_v3 : Ref sig .tc := ⟨.hbm, 296, rfl⟩
abbrev main_call11_v4 : Ref sig .tc := ⟨.hbm, 297, rfl⟩
abbrev main_call11_c_1 : Ref sig .tc := ⟨.hbm, 298, rfl⟩
abbrev main_call11_v5 : Ref sig .tc := ⟨.hbm, 299, rfl⟩
abbrev main_call11_v6 : Ref sig .tc := ⟨.hbm, 300, rfl⟩
abbrev main_call11_c_2 : Ref sig .tc := ⟨.hbm, 301, rfl⟩
abbrev main_call11_v7 : Ref sig .tc := ⟨.hbm, 302, rfl⟩
abbrev main_call11_v8 : Ref sig .tc := ⟨.hbm, 303, rfl⟩
abbrev main_call11_c_3 : Ref sig .tc := ⟨.hbm, 304, rfl⟩
abbrev main_call11_v9 : Ref sig .tc := ⟨.hbm, 305, rfl⟩
abbrev main_call11_v10 : Ref sig .tc := ⟨.hbm, 306, rfl⟩
abbrev main_call11_v11 : Ref sig .tc := ⟨.hbm, 307, rfl⟩
abbrev main_call11_v12 : Ref sig .tc := ⟨.hbm, 308, rfl⟩
abbrev main_call11_v13 : Ref sig .tc := ⟨.hbm, 309, rfl⟩
abbrev main_call11_v14 : Ref sig .tc := ⟨.hbm, 310, rfl⟩
abbrev main_v57 : Ref sig .tc := ⟨.hbm, 311, rfl⟩
abbrev main_c_23 : Ref sig .tc := ⟨.hbm, 312, rfl⟩
abbrev main_v58 : Ref sig .tc := ⟨.hbm, 313, rfl⟩
abbrev main_v59 : Ref sig .tc := ⟨.hbm, 314, rfl⟩
abbrev main_c_24 : Ref sig .tc := ⟨.hbm, 315, rfl⟩
abbrev main_v60 : Ref sig .tc := ⟨.hbm, 316, rfl⟩
abbrev main_v61 : Ref sig .tc := ⟨.hbm, 317, rfl⟩
abbrev main_v62 : Ref sig .tc := ⟨.hbm, 318, rfl⟩
abbrev main_v63 : Ref sig .tc := ⟨.hbm, 319, rfl⟩
abbrev main_v64 : Ref sig .tc := ⟨.hbm, 320, rfl⟩
abbrev main_c_25 : Ref sig .tc := ⟨.hbm, 321, rfl⟩
abbrev main_v65 : Ref sig .tc := ⟨.hbm, 322, rfl⟩
abbrev main_v66 : Ref sig .tc := ⟨.hbm, 323, rfl⟩
abbrev main_c_26 : Ref sig .tc := ⟨.hbm, 324, rfl⟩
abbrev main_v67 : Ref sig .tc := ⟨.hbm, 325, rfl⟩
abbrev main_v68 : Ref sig .tc := ⟨.hbm, 326, rfl⟩
abbrev main_v69 : Ref sig .tc := ⟨.hbm, 327, rfl⟩
abbrev main_v70 : Ref sig .tc := ⟨.hbm, 328, rfl⟩
abbrev main_v71 : Ref sig .tc := ⟨.hbm, 329, rfl⟩
abbrev main_v72 : Ref sig .tc := ⟨.hbm, 330, rfl⟩
abbrev main_c_27 : Ref sig .tc := ⟨.hbm, 331, rfl⟩
abbrev main_v73 : Ref sig .tc := ⟨.hbm, 332, rfl⟩
abbrev main_v74 : Ref sig .tc := ⟨.hbm, 333, rfl⟩
abbrev main_c_28 : Ref sig .tc := ⟨.hbm, 334, rfl⟩
abbrev main_v75 : Ref sig .tc := ⟨.hbm, 335, rfl⟩
abbrev main_v76 : Ref sig .tc := ⟨.hbm, 336, rfl⟩
abbrev main_v77 : Ref sig .tc := ⟨.hbm, 337, rfl⟩
abbrev main_v78 : Ref sig .tc := ⟨.hbm, 338, rfl⟩
abbrev main_v79 : Ref sig .tc := ⟨.hbm, 339, rfl⟩
abbrev main_v80 : Ref sig .tc := ⟨.hbm, 340, rfl⟩
abbrev main_v81 : Ref sig .tc := ⟨.hbm, 341, rfl⟩
abbrev main_cst : Ref sig .tc := ⟨.hbm, 342, rfl⟩
abbrev main_v82 : Ref sig .tc := ⟨.hbm, 343, rfl⟩
abbrev main_v83 : Ref sig .tc := ⟨.hbm, 344, rfl⟩
abbrev main_cst_29 : Ref sig .tc := ⟨.hbm, 345, rfl⟩
abbrev main_v84 : Ref sig .tc := ⟨.hbm, 346, rfl⟩
abbrev main_v85 : Ref sig .tc := ⟨.hbm, 347, rfl⟩
abbrev main_v86 : Ref sig .tc := ⟨.hbm, 348, rfl⟩
abbrev main_v87 : Ref sig .tc := ⟨.hbm, 349, rfl⟩
abbrev main_v88 : Ref sig .tc := ⟨.hbm, 350, rfl⟩
abbrev main_cst_30 : Ref sig .tc := ⟨.hbm, 351, rfl⟩
abbrev main_v89 : Ref sig .tc := ⟨.hbm, 352, rfl⟩
abbrev main_v90 : Ref sig .tc := ⟨.hbm, 353, rfl⟩
abbrev main_cst_31 : Ref sig .tc := ⟨.hbm, 354, rfl⟩
abbrev main_v91 : Ref sig .tc := ⟨.hbm, 355, rfl⟩
abbrev main_v92 : Ref sig .tc := ⟨.hbm, 356, rfl⟩
abbrev main_v93 : Ref sig .tc := ⟨.hbm, 357, rfl⟩
abbrev main_v94 : Ref sig .tc := ⟨.hbm, 358, rfl⟩
abbrev main_cst_32 : Ref sig .tc := ⟨.hbm, 359, rfl⟩
abbrev main_v95 : Ref sig .tc := ⟨.hbm, 360, rfl⟩
abbrev main_v96 : Ref sig .tc := ⟨.hbm, 361, rfl⟩
abbrev main_v97 : Ref sig .tc := ⟨.hbm, 362, rfl⟩
abbrev main_v98 : Ref sig .tc := ⟨.hbm, 363, rfl⟩
abbrev main_v99 : Ref sig .tc := ⟨.hbm, 364, rfl⟩
abbrev main_v100 : Ref sig .tc := ⟨.hbm, 365, rfl⟩
abbrev main_v101 : Ref sig .tc := ⟨.hbm, 366, rfl⟩
abbrev main_v102 : Ref sig .tc := ⟨.hbm, 367, rfl⟩
abbrev main_v103 : Ref sig .tc := ⟨.hbm, 368, rfl⟩
abbrev main_v104 : Ref sig .tc := ⟨.hbm, 369, rfl⟩
abbrev main_v105 : Ref sig .tc := ⟨.hbm, 370, rfl⟩

abbrev nD : Nat := 1
abbrev τ : Topo := Topo.v7x

variable {F : FTy → Type} [FloatOps F]

class Facts₀ : Prop where
  bcast_S_S8000 : S_.BroadcastsInDim S8000 (![] : Fin 0 → Fin S8000.rank)
  bcast_S8000_S8000x1_0 : S8000.BroadcastsInDim S8000x1 (![0] : Fin 1 → Fin S8000x1.rank)
  bcast_S_S60000 : S_.BroadcastsInDim S60000 (![] : Fin 0 → Fin S60000.rank)
  bcast_S60000_S60000x1_0 : S60000.BroadcastsInDim S60000x1 (![0] : Fin 1 → Fin S60000x1.rank)
  bcast_S_S480000 : S_.BroadcastsInDim S480000 (![] : Fin 0 → Fin S480000.rank)
  bcast_S480000_S480000x1_0 : S480000.BroadcastsInDim S480000x1 (![0] : Fin 1 → Fin S480000x1.rank)
  concatenates_S8000x256_S60000x256_S480000x256_S548000x256_d0 : Shape.Concatenates [S8000x256, S60000x256, S480000x256] S548000x256 0
  reducesTo_S548000x256_S548000_d1 : S548000x256.ReducesTo [1] S548000
  h_S_ : 0 < S_.numel
  bcast_S548000_S548000x1_0 : S548000.BroadcastsInDim S548000x1 (![0] : Fin 1 → Fin S548000x1.rank)
  bcast_S_S548000x1 : S_.BroadcastsInDim S548000x1 (![] : Fin 0 → Fin S548000x1.rank)
  bcast_S548000x1_S548000x256_0_1 : S548000x1.BroadcastsInDim S548000x256 (![0, 1] : Fin 2 → Fin S548000x256.rank)
  bcast_S256_S1x256_1 : S256.BroadcastsInDim S1x256 (![1] : Fin 1 → Fin S1x256.rank)
  bcast_S1x256_S548000x256_0_1 : S1x256.BroadcastsInDim S548000x256 (![0, 1] : Fin 2 → Fin S548000x256.rank)
  gather_S50x256_S8000x1_S8000x256_1_0_n_n_0_1_1256_wf : GatherDims.WF S50x256 S8000x1 S8000x256 [1] [0] [] [0] [] 1 ![1, 256]
  gather_S4x256_S8000x1_S8000x256_1_0_n_n_0_1_1256_wf : GatherDims.WF S4x256 S8000x1 S8000x256 [1] [0] [] [0] [] 1 ![1, 256]
  gather_S100x256_S60000x1_S60000x256_1_0_n_n_0_1_1256_wf : GatherDims.WF S100x256 S60000x1 S60000x256 [1] [0] [] [0] [] 1 ![1, 256]
  gather_S8x256_S60000x1_S60000x256_1_0_n_n_0_1_1256_wf : GatherDims.WF S8x256 S60000x1 S60000x256 [1] [0] [] [0] [] 1 ![1, 256]
  gather_S200x256_S480000x1_S480000x256_1_0_n_n_0_1_1256_wf : GatherDims.WF S200x256 S480000x1 S480000x256 [1] [0] [] [0] [] 1 ![1, 256]
  gather_S16x256_S480000x1_S480000x256_1_0_n_n_0_1_1256_wf : GatherDims.WF S16x256 S480000x1 S480000x256 [1] [0] [] [0] [] 1 ![1, 256]

variable [Facts₀]

def gather_S50x256_S8000x1_S8000x256_1_0_n_n_0_1_1256 : GatherDims S50x256 S8000x1 S8000x256 where
  offsetDims := [1]
  collapsedSliceDims := [0]
  operandBatchingDims := []
  startIndicesBatchingDims := []
  startIndexMap := [0]
  indexVectorDim := 1
  sliceSizes := ![1, 256]
  wf := gather_S50x256_S8000x1_S8000x256_1_0_n_n_0_1_1256_wf
def gather_S4x256_S8000x1_S8000x256_1_0_n_n_0_1_1256 : GatherDims S4x256 S8000x1 S8000x256 where
  offsetDims := [1]
  collapsedSliceDims := [0]
  operandBatchingDims := []
  startIndicesBatchingDims := []
  startIndexMap := [0]
  indexVectorDim := 1
  sliceSizes := ![1, 256]
  wf := gather_S4x256_S8000x1_S8000x256_1_0_n_n_0_1_1256_wf
def gather_S100x256_S60000x1_S60000x256_1_0_n_n_0_1_1256 : GatherDims S100x256 S60000x1 S60000x256 where
  offsetDims := [1]
  collapsedSliceDims := [0]
  operandBatchingDims := []
  startIndicesBatchingDims := []
  startIndexMap := [0]
  indexVectorDim := 1
  sliceSizes := ![1, 256]
  wf := gather_S100x256_S60000x1_S60000x256_1_0_n_n_0_1_1256_wf
def gather_S8x256_S60000x1_S60000x256_1_0_n_n_0_1_1256 : GatherDims S8x256 S60000x1 S60000x256 where
  offsetDims := [1]
  collapsedSliceDims := [0]
  operandBatchingDims := []
  startIndicesBatchingDims := []
  startIndexMap := [0]
  indexVectorDim := 1
  sliceSizes := ![1, 256]
  wf := gather_S8x256_S60000x1_S60000x256_1_0_n_n_0_1_1256_wf
def gather_S200x256_S480000x1_S480000x256_1_0_n_n_0_1_1256 : GatherDims S200x256 S480000x1 S480000x256 where
  offsetDims := [1]
  collapsedSliceDims := [0]
  operandBatchingDims := []
  startIndicesBatchingDims := []
  startIndexMap := [0]
  indexVectorDim := 1
  sliceSizes := ![1, 256]
  wf := gather_S200x256_S480000x1_S480000x256_1_0_n_n_0_1_1256_wf
def gather_S16x256_S480000x1_S480000x256_1_0_n_n_0_1_1256 : GatherDims S16x256 S480000x1 S480000x256 where
  offsetDims := [1]
  collapsedSliceDims := [0]
  operandBatchingDims := []
  startIndicesBatchingDims := []
  startIndexMap := [0]
  indexVectorDim := 1
  sliceSizes := ![1, 256]
  wf := gather_S16x256_S480000x1_S480000x256_1_0_n_n_0_1_1256_wf

class Facts : Prop extends Facts₀ where

variable [Facts]
-- ==== Proof.KB.Entry.lean ====
import proofs.«426295_j69604239999073_3_alg».proof.Proof.Gen.Kernel.Launch
import proofs.«426295_j69604239999073_3_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]

abbrev V (c : Dev nD) (b : Ref sig .tc) : Buf (Elt F) ((c : Thread nD τ).loc b) :=
  StableHlo.after stretches.flatten (fun b => m (c, b)) b

section Keep
variable {nD' : Nat} {τ' : Topo} {sig' : RefSig} {Val' : EltTy → Type}

abbrev WritesIn (ops : List (HloOp τ' sig' Val')) (W : List (Ref sig' .tc)) : Prop :=
  ops.Forall fun op => op.writes ⊆ (W.map (Proc.devRef (τ := τ') .tc)).toFinset

-- Induction on the stretches: each one keeps a reference outside its own list.
theorem after_flatten_keep {r : Ref sig' .tc} :
    ∀ (opss : List (List (HloOp τ' sig' Val'))) (Ws : List (List (Ref sig' .tc))) (V : Valuation τ' sig' Val'),
      List.Forall₂ WritesIn opss Ws → r ∉ Ws.flatten →
      StableHlo.after opss.flatten V (Proc.devRef .tc r) = V (Proc.devRef .tc r)
  | [], _, V, _, _ => by rw [List.flatten_nil, StableHlo.after_nil]
  | ops :: opss, W :: Ws, V, .cons h hs, hr => by
    rw [List.flatten_cons, List.mem_append, not_or] at hr
    rw [List.flatten_cons, StableHlo.after_append, after_flatten_keep opss Ws _ hs hr.2]
    exact StableHlo.after_of_writes_sub ops V h hr.1

end Keep

abbrev written : List (List (Ref sig .tc)) :=
  [[main_c, main_c_0],
   [main_call0_v0, main_call0_v1, main_call0_v2, main_call0_v3, main_call0_v4, main_v0],
   [main_c_1],
   [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v1],
   [main_c_2, main_v2, main_v3, main_v4, main_c_3],
   [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v5],
   [main_c_4, main_v6, main_v7, main_v8, main_c_5, main_c_6],
   [main_call3_v0, main_call3_v1, main_call3_v2, main_call3_v3, main_call3_v4, main_v9],
   [main_c_7, main_c_8],
   [main_call4_v0, main_call4_v1, main_call4_v2, main_call4_v3, main_call4_v4, main_v10],
   [main_c_9, main_c_10],
   [main_call5_v0, main_call5_v1, main_call5_v2, main_call5_v3, main_call5_v4, main_v11],
   [main_c_11, main_c_12],
   [main_call6_v0, main_call6_v1, main_call6_v2, main_call6_v3, main_call6_v4, main_v12],
   [main_c_13],
   [main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v13],
   [main_c_14, main_v14, main_v15, main_v16, main_c_15],
   [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v17],
   [main_c_16, main_v18, main_v19, main_v20, main_c_17, main_c_18],
   [main_call9_v0, main_call9_v1, main_call9_v2, main_call9_v3, main_call9_v4, main_v21],
   [main_c_19, main_c_20],
   [main_call10_v0, main_call10_v1, main_call10_v2, main_call10_v3, main_call10_v4, main_v22],
   [main_c_21, main_c_22],
   [main_call11_v0, main_call11_v1, main_call11_v2, main_call11_v3, main_call11_v4, main_v23],
   [main_c_23, main_c_24],
   [main_call12_v0, main_call12_v1, main_call12_v2, main_call12_v3, main_call12_v4, main_v24],
   [main_c_25],
   [main_call13_v0, main_call13_v1, main_call13_v2, main_call13_v3, main_call13_v4, main_call13_v5, main_call13_v6, main_call13_v7, main_call13_v8, main_call13_c, main_call13_v9, main_call13_v10, main_call13_v11, main_call13_c_0, main_call13_v12, main_call13_v13, main_v25],
   [main_c_26, main_v26, main_v27, main_v28, main_c_27],
   [main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v29],
   [main_c_28, main_v30, main_v31, main_v32, main_c_29, main_c_30],
   [main_call15_v0, main_call15_v1, main_call15_v2, main_call15_v3, main_call15_v4, main_v33],
   [main_c_31, main_c_32],
   [main_call16_v0, main_call16_v1, main_call16_v2, main_call16_v3, main_call16_v4, main_v34],
   [main_c_33, main_c_34],
   [main_call17_v0, main_call17_v1, main_call17_v2, main_call17_v3, main_call17_v4, main_v35],
   [main_c_35, main_v36, main_v37, main_c_36, main_v38, main_v39, main_c_37, main_v40, main_v41, main_v42, main_c_38, main_v43, main_v44, main_c_39, main_v45, main_v46, main_c_40, main_v47, main_v48, main_v49, main_c_41, main_v50, main_v51, main_c_42, main_v52, main_v53, main_c_43, main_v54, main_v55, main_v56, main_v57, main_v58, main_v59, main_c_44],
   [main_call18_v0, main_v60],
   [main_c_45],
   [main_call19_v0, main_v61],
   [main_c_46],
   [main_call20_v0, main_v62],
   [main_v63, main_v64, main_v65, main_v66]]

-- Every operation writes exactly its result, which its stretch's list names.
theorem stretches_writes : List.Forall₂ WritesIn (stretches (F := F)) written := by
  repeat' constructor
  all_goals
    simp only [WritesIn, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide)

theorem V_of_not_written (c : Dev nD) (r : Ref sig .tc) (h : r ∉ written.flatten) : V m c r = m ((c : Thread nD τ).loc r) :=
  after_flatten_keep stretches written _ stretches_writes h

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub⟩)
    (by simp only [List.Forall]; repeat' constructor) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Blocks
variable {c : Dev nD} (dat : Dat τ (Elt F) Unit ℕ (UR sig nD τ) ℕ cfg0 c)

theorem iblk_eq (w : Fin cfg0.W) (hA : dat.A w = V m c (Pipeline.arrRef spec0 w)) (t : Fin cfg0.N) : iblk m c w t = dat.blockOf w t := by
  unfold iblk Dat.blockOf; rw [hA]

theorem before0_0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; exact iblk_eq m dat 0 hA t) t d).trans (iblk_eq m dat 0 hA t).symm
theorem before0_1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; exact iblk_eq m dat 1 hA t) t d).trans (iblk_eq m dat 1 hA t).symm
theorem before0_2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; exact iblk_eq m dat 2 hA t) t d).trans (iblk_eq m dat 2 hA t).symm
theorem before0_3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; exact iblk_eq m dat 3 hA t) t d).trans (iblk_eq m dat 3 hA t).symm
theorem before0_4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; exact iblk_eq m dat 4 hA t) t d).trans (iblk_eq m dat 4 hA t).symm
theorem before0_5_of (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; exact iblk_eq m dat 5 hA t) t d).trans (iblk_eq m dat 5 hA t).symm
theorem before0_6_of (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; exact iblk_eq m dat 6 hA t) t d).trans (iblk_eq m dat 6 hA t).symm

end Blocks

abbrev argRefs : List (Ref sig .tc) :=
  [main_arg0, main_arg1, main_arg2, main_arg3, main_arg4, main_arg5, main_arg6, main_arg7, main_arg8, main_arg9, main_arg10, main_arg11, main_arg12, main_arg13]

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      argRefs.Forall fun a => r.2.mem ((c.tc : Thread nD τ).loc a) = m ((c.tc : Thread nD τ).loc a)) :=
  (θ_run defs _ _).mono (fun _ h c => by
    repeat' apply And.intro
    all_goals exact ((h c).2 _ (Pipeline.mem_restRefs_of _ (by decide) (by decide))).trans (V_of_not_written m c _ (by decide))) h

end Cert.Kernel.Hand

end
-- ==== Proof.KB.Runs.lean ====
import proofs.«426295_j69604239999073_3_alg».proof.Proof.Gen.Kernel.Launch
import proofs.«426295_j69604239999073_3_alg».proof.Proof.Gen.Kernel.Skeleton
import proofs.«426295_j69604239999073_3_alg».proof.Proof.Gen.Kernel.Points
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.Sem
open Cert.Kernel Cert.Kernel.Gen

variable {F : FTy → Type} [FloatOps F]

local notation "𝕄" => MT nD τ sig Unit (Elt F) ℕ (UR sig nD τ) ℕ

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1

theorem hcond1 : ∀ t : Fin cfg0.N, cond1 (grid0.coords t) ↔ t.val ≤ 2 := by
  decide +kernel
theorem hcond2 : ∀ t : Fin cfg0.N, cond2 (grid0.coords t) ↔ 4 ≤ t.val ∧ t.val ≤ 32 := by
  decide +kernel
theorem hcond3 : ∀ t : Fin cfg0.N, cond3 (grid0.coords t) ↔ 34 ≤ t.val := by
  decide +kernel
theorem hcond4 : ∀ t : Fin cfg0.N, cond4 (grid0.coords t) ↔ t.val = 3 ∨ t.val = 33 := by
  decide +kernel

theorem idle7_false : ∀ t : Fin cfg0.N, cfg0.idle 7 (cfg0.grid.coords t) = false := by
  decide +kernel

abbrev VO0_7 : View sig .tc .vmem S2048x256 .f32 := (Memref.whole cc0_stg7_0 : Memref sig .tc .vmem S2048x256 .f32).view
variable (t : Fin cfg0.N)
abbrev ms0_0 : Memref sig .tc .vmem S2048 .i32 := win0_0.stage (cfg0.slots t 0)
abbrev hs0_0 : (ms0_0 t).IsWhole := hstage0_0 ((cfg0.slots t 0).cast nbuf0_0)
abbrev ms0_1 : Memref sig .tc .vmem S2048 .i32 := win0_1.stage (cfg0.slots t 1)
abbrev hs0_1 : (ms0_1 t).IsWhole := hstage0_1 ((cfg0.slots t 1).cast nbuf0_1)
abbrev ms0_2 : Memref sig .tc .vmem S2048 .i32 := win0_2.stage (cfg0.slots t 2)
abbrev hs0_2 : (ms0_2 t).IsWhole := hstage0_2 ((cfg0.slots t 2).cast nbuf0_2)
abbrev ms0_3 : Memref sig .tc .vmem S728x256 .bf16 := win0_3.stage (cfg0.slots t 3)
abbrev hs0_3 : (ms0_3 t).IsWhole := hstage0_3 ((cfg0.slots t 3).cast nbuf0_3)
abbrev ms0_4 : Memref sig .tc .vmem S728x256 .bf16 := win0_4.stage (cfg0.slots t 4)
abbrev hs0_4 : (ms0_4 t).IsWhole := hstage0_4 ((cfg0.slots t 4).cast nbuf0_4)
abbrev ms0_5 : Memref sig .tc .vmem S1x256 .f32 := win0_5.stage (cfg0.slots t 5)
abbrev hs0_5 : (ms0_5 t).IsWhole := hstage0_5 ((cfg0.slots t 5).cast nbuf0_5)
abbrev ms0_6 : Memref sig .tc .vmem S1x256 .f32 := win0_6.stage (cfg0.slots t 6)
abbrev hs0_6 : (ms0_6 t).IsWhole := hstage0_6 ((cfg0.slots t 6).cast nbuf0_6)
abbrev ms0_7 : Memref sig .tc .vmem S2048x256 .f32 := win0_7.stage (cfg0.slots t 7)
abbrev hs0_7 : (ms0_7 t).IsWhole := hstage0_7 ((cfg0.slots t 7).cast nbuf0_7)

/-- A whole memref owned at `X` is its points-to at the one raw contents that read `X`. -/
theorem owns_unread (c : Dev nD) {sp : Space} {sh : Shape} {e : EltTy} {a : Memref sig .tc sp sh e} (h : a.IsWhole)
    (X : sh.Idx → Elt F e) :
    (owns (c : Thread nD τ) a fullShare X : sProp 𝕄) = (a.view.loc (c : Thread nD τ) ↦[a.view.set]{fullShare} h.unread X) := by
  have h₁ : (owns (c : Thread nD τ) a fullShare X : sProp 𝕄) ⊢ (a.view.loc (c : Thread nD τ) ↦[a.view.set]{fullShare} h.unread X) := by
    unfold owns; iintro ⟨%f, %hf, H⟩; obtain rfl := h.eq_unread hf; iexact H
  have h₂ := owns_intro (Ix := Unit) (Name := ℕ) (U := UR sig nD τ) (Lvl := ℕ) (c : Thread nD τ) a fullShare (h.unread X)
  rw [h.read_unread] at h₂
  exact BI.equiv_iff.mp ⟨h₁, h₂⟩

/-- A run of the tile body in the control case `C1 .. C4`: the pieces it stores in the output block, the seven inputs kept. -/
abbrev BodyRun (C1 C2 C3 C4 : grid0.Coords → Prop) :=
  ∀ (c : Dev nD) (i : grid0.Coords) (arg1 : Memref sig .tc .vmem S2048 .i32) (harg1 : arg1.IsWhole) (arg2 : Memref sig .tc .vmem S2048 .i32) (harg2 : arg2.IsWhole) (arg3 : Memref sig .tc .vmem S2048 .i32) (harg3 : arg3.IsWhole) (arg4 : Memref sig .tc .vmem S728x256 .bf16) (harg4 : arg4.IsWhole) (arg5 : Memref sig .tc .vmem S728x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole),
    C1 i → C2 i → C3 i → C4 i → ∀ (x0 x1 x2 : Vec F S2048 .i32) (x3 x4 : Vec F S728x256 .bf16) (x5 x6 : Vec F S1x256 .f32),
    { L7 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0_kernel i arg1 harg1 arg2 harg2 arg3 harg3 arg4 harg4 arg5 harg5 arg6 harg6 arg7 harg7 arg8 harg8) K }

end Cert.Kernel.Hand

end
-- ==== Proof.KB.RunP1.lean ====
import proofs.«426295_j69604239999073_3_alg».proof.Proof.KB.Runs

noncomputable section

namespace Cert.Kernel.Hand

open Idealize.ShloMosaic Cert.Kernel Cert.Kernel.Gen

variable {F : FTy → Type} [FloatOps F]

set_option maxHeartbeats 4000000 in
def kernelRun0_P1 : BodyRun (F := F) cond1 (¬cond2 ·) (¬cond3 ·) (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part1_eq_skeleton]; unfold k0_part1_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.Kernel.Hand

end
-- ==== Proof.KB.RunP2.lean ====
import proofs.«426295_j69604239999073_3_alg».proof.Proof.KB.RunP1

noncomputable section

namespace Cert.Kernel.Hand

open Idealize.ShloMosaic Cert.Kernel Cert.Kernel.Gen

variable {F : FTy → Type} [FloatOps F]

set_option maxHeartbeats 4000000 in
def kernelRun0_P2 : BodyRun (F := F) (¬cond1 ·) cond2 (¬cond3 ·) (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part2_eq_skeleton]; unfold k0_part2_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.Kernel.Hand

end
-- ==== Proof.KB.RunP3.lean ====
import proofs.«426295_j69604239999073_3_alg».proof.Proof.KB.RunP2

noncomputable section

namespace Cert.Kernel.Hand

open Idealize.ShloMosaic Cert.Kernel Cert.Kernel.Gen

variable {F : FTy → Type} [FloatOps F]

set_option maxHeartbeats 4000000 in
def kernelRun0_P3 : BodyRun (F := F) (¬cond1 ·) (¬cond2 ·) cond3 (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part3_eq_skeleton]; unfold k0_part3_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.Kernel.Hand

end
-- ==== Proof.KB.RunS.lean ====
import proofs.«426295_j69604239999073_3_alg».proof.Proof.KB.RunP3

noncomputable section

namespace Cert.Kernel.Hand

open Idealize.ShloMosaic Cert.Kernel Cert.Kernel.Gen

variable {F : FTy → Type} [FloatOps F]

set_option maxHeartbeats 4000000 in
def kernelRun0_S : BodyRun (F := F) (¬cond1 ·) (¬cond2 ·) (¬cond3 ·) cond4 := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.Kernel.Hand

end
-- ==== Proof.KB.Pieces.lean ====
import proofs.«426295_j69604239999073_3_alg».proof.Proof.KB.RunS
import Idealize.ShloMosaic.Lib.Pipeline.Value
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- Rows `base`, `base + 1`, … of the [728, 256] table as an array of shape `S`, indices taken modulo the table's extents. -/
def tabSlice (base : ℕ) (S : Shape) (x : Vec F S728x256 .bf16) : Vec F S .bf16 := fun j =>
  x (ix2 (n0 := 728) (n1 := 256)
    ⟨(base + (if h : 0 < S.rank then (j ⟨0, h⟩).val else 0)) % 728, Nat.mod_lt _ (by decide)⟩
    ⟨(if h : 1 < S.rank then (j ⟨1, h⟩).val else 0) % 256, Nat.mod_lt _ (by decide)⟩)

theorem tabSlice_apply (base n : ℕ) (hn : base + n ≤ 728) (x : Vec F S728x256 .bf16) (r : Fin n) (f : Fin 256) :
    tabSlice base (⟨2, ![n, 256]⟩ : Shape) x (ix2 r f) = x (ix2 (n0 := 728) (n1 := 256) ⟨base + r.val, by omega⟩ f) := by
  show x (ix2 ⟨(base + r.val) % 728, _⟩ ⟨f.val % 256, _⟩) = _
  simp only [Nat.mod_eq_of_lt (show base + r.val < 728 by omega), Nat.mod_eq_of_lt f.isLt]

/-- A load of `n` rows from row `base` on reads that block of rows of the table. -/
theorem ld_tabSlice (base n : ℕ) (inb : ∀ a, (![base, 0] : Fin 2 → ℕ) a + (![n, 256] : Fin 2 → ℕ) a ≤ S728x256.size a)
    (x : Vec F S728x256 .bf16) :
    View.ld x (Rect.unit (s := S728x256) ![base, 0] ![n, 256] inb) = tabSlice base (⟨2, ![n, 256]⟩ : Shape) x := by
  have hn : base + n ≤ 728 := by have := inb 0; simpa using this
  funext j
  obtain ⟨r, f, rfl⟩ : ∃ (r : Fin n) (f : Fin 256), j = ix2 r f := ⟨j 0, j 1, eq_ix2 j⟩
  rw [tabSlice_apply base n hn]
  show x ((Rect.unit (s := S728x256) ![base, 0] ![n, 256] inb).idx (ix2 r f)) = _
  refine congrArg x (funext fun a => Fin.ext ?_)
  match a with
  | ⟨0, _⟩ => show base + 1 * r.val = base + r.val; omega
  | ⟨1, _⟩ => show 0 + 1 * f.val = f.val; omega

theorem hz1 : (![0] : Fin 1 → ℕ) = fun _ => 0 := funext fun a => by fin_cases a <;> rfl
theorem hz2 : (![0, 0] : Fin 2 → ℕ) = fun _ => 0 := funext fun a => by fin_cases a <;> rfl

variable (c : Dev nD) (i : grid0.Coords) (arg1 : Memref sig .tc .vmem S2048 .i32) (harg1 : arg1.IsWhole) (arg2 : Memref sig .tc .vmem S2048 .i32) (harg2 : arg2.IsWhole) (arg3 : Memref sig .tc .vmem S2048 .i32) (harg3 : arg3.IsWhole) (arg4 : Memref sig .tc .vmem S728x256 .bf16) (harg4 : arg4.IsWhole) (arg5 : Memref sig .tc .vmem S728x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole)

section
variable (hc1 : cond1 i) (hc2 : ¬cond2 i) (hc3 : ¬cond3 i) (hc4 : ¬cond4 i) (x0 x1 x2 : Vec F S2048 .i32) (x3 x4 : Vec F S728x256 .bf16) (x5 x6 : Vec F S1x256 .f32)

theorem cover0_P1_7 : ∀ y : S2048x256.Idx, ∃ pc ∈ (kernelRun0_P1 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P1_7 : Vec F S2048x256 .f32 :=
  VO0_7.read (Elt F) (VO0_7.writes (Elt F) VO0_7.junk (kernelRun0_P1 c i arg1 harg1 arg2 harg2 arg3 harg3 arg4 harg4 arg5 harg5 arg6 harg6 arg7 harg7 arg8 harg8 hc1 hc2 hc3 hc4 x0 x1 x2 x3 x4 x5 x6).1)

theorem out0_P1_7_eq : out0_P1_7 c i arg1 harg1 arg2 harg2 arg3 harg3 arg4 harg4 arg5 harg5 arg6 harg6 arg7 harg7 arg8 harg8 hc1 hc2 hc3 hc4 x0 x1 x2 x3 x4 x5 x6 = k0_pay6 x5 x6 (k0_pay10 (k0_pay1 x0) (k0_pay2 x1) (k0_pay3 x2) (tabSlice 0 S104x256 x3) (tabSlice 0 S104x256 x4)) := by
  unfold out0_P1_7
  rw [View.read_writes_junk_eq_canon]
  unfold kernelRun0_P1
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : cond2 i) (hc3 : ¬cond3 i) (hc4 : ¬cond4 i) (x0 x1 x2 : Vec F S2048 .i32) (x3 x4 : Vec F S728x256 .bf16) (x5 x6 : Vec F S1x256 .f32)

theorem cover0_P2_7 : ∀ y : S2048x256.Idx, ∃ pc ∈ (kernelRun0_P2 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P2_7 : Vec F S2048x256 .f32 :=
  VO0_7.read (Elt F) (VO0_7.writes (Elt F) VO0_7.junk (kernelRun0_P2 c i arg1 harg1 arg2 harg2 arg3 harg3 arg4 harg4 arg5 harg5 arg6 harg6 arg7 harg7 arg8 harg8 hc1 hc2 hc3 hc4 x0 x1 x2 x3 x4 x5 x6).1)

theorem out0_P2_7_eq : out0_P2_7 c i arg1 harg1 arg2 harg2 arg3 harg3 arg4 harg4 arg5 harg5 arg6 harg6 arg7 harg7 arg8 harg8 hc1 hc2 hc3 hc4 x0 x1 x2 x3 x4 x5 x6 = k0_pay7 x5 x6 (k0_pay11 (k0_pay1 x0) (k0_pay2 x1) (k0_pay3 x2) (tabSlice 104 S208x256 x3) (tabSlice 104 S208x256 x4)) := by
  unfold out0_P2_7
  rw [View.read_writes_junk_eq_canon]
  unfold kernelRun0_P2
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : ¬cond2 i) (hc3 : cond3 i) (hc4 : ¬cond4 i) (x0 x1 x2 : Vec F S2048 .i32) (x3 x4 : Vec F S728x256 .bf16) (x5 x6 : Vec F S1x256 .f32)

theorem cover0_P3_7 : ∀ y : S2048x256.Idx, ∃ pc ∈ (kernelRun0_P3 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P3_7 : Vec F S2048x256 .f32 :=
  VO0_7.read (Elt F) (VO0_7.writes (Elt F) VO0_7.junk (kernelRun0_P3 c i arg1 harg1 arg2 harg2 arg3 harg3 arg4 harg4 arg5 harg5 arg6 harg6 arg7 harg7 arg8 harg8 hc1 hc2 hc3 hc4 x0 x1 x2 x3 x4 x5 x6).1)

theorem out0_P3_7_eq : out0_P3_7 c i arg1 harg1 arg2 harg2 arg3 harg3 arg4 harg4 arg5 harg5 arg6 harg6 arg7 harg7 arg8 harg8 hc1 hc2 hc3 hc4 x0 x1 x2 x3 x4 x5 x6 = k0_pay8 x5 x6 (k0_pay12 (k0_pay1 x0) (k0_pay2 x1) (k0_pay3 x2) (tabSlice 312 S416x256 x3) (tabSlice 312 S416x256 x4)) := by
  unfold out0_P3_7
  rw [View.read_writes_junk_eq_canon]
  unfold kernelRun0_P3
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : ¬cond2 i) (hc3 : ¬cond3 i) (hc4 : cond4 i) (x0 x1 x2 : Vec F S2048 .i32) (x3 x4 : Vec F S728x256 .bf16) (x5 x6 : Vec F S1x256 .f32)

theorem cover0_S_7 : ∀ y : S2048x256.Idx, ∃ pc ∈ (kernelRun0_S c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_S_7 : Vec F S2048x256 .f32 :=
  VO0_7.read (Elt F) (VO0_7.writes (Elt F) VO0_7.junk (kernelRun0_S c i arg1 harg1 arg2 harg2 arg3 harg3 arg4 harg4 arg5 harg5 arg6 harg6 arg7 harg7 arg8 harg8 hc1 hc2 hc3 hc4 x0 x1 x2 x3 x4 x5 x6).1)

theorem out0_S_7_eq : out0_S_7 c i arg1 harg1 arg2 harg2 arg3 harg3 arg4 harg4 arg5 harg5 arg6 harg6 arg7 harg7 arg8 harg8 hc1 hc2 hc3 hc4 x0 x1 x2 x3 x4 x5 x6 = k0_pay9 x0 x1 x2 x5 x6 x3 x4 := by
  unfold out0_S_7
  rw [View.read_writes_junk_eq_canon]
  unfold kernelRun0_S
  dsimp only
  sl_unfold_words
  rw [View.canon_unit_zero hz2]
  simp only [View.readAt_eq_ld, Memref.IsWhole.read_unread, View.ld_unit_zero (S := S2048) hz1, View.ld_unit_zero (S := S1x256) hz2, View.ld_unit_zero (S := S728x256) hz2]
end

end Cert.Kernel.Hand

end
-- ==== Proof.KB.Frame.lean ====
import proofs.«426295_j69604239999073_3_alg».proof.Proof.KB.Entry
import proofs.«426295_j69604239999073_3_alg».proof.Proof.KB.Pieces

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

variable (m : (ℓ : Loc nD τ sig) → Buf (Elt F) ℓ) (ρ : Dev nD → PrngReg)

theorem ncond1_of (t : Fin cfg0.N) (h : ¬t.val ≤ 2) : ¬cond1 (grid0.coords t) := mt (hcond1 t).mp h
theorem ncond2_of (t : Fin cfg0.N) (h : ¬(4 ≤ t.val ∧ t.val ≤ 32)) : ¬cond2 (grid0.coords t) := mt (hcond2 t).mp h
theorem ncond3_of (t : Fin cfg0.N) (h : ¬34 ≤ t.val) : ¬cond3 (grid0.coords t) := mt (hcond3 t).mp h
theorem ncond4_of (t : Fin cfg0.N) (h : ¬(t.val = 3 ∨ t.val = 33)) : ¬cond4 (grid0.coords t) := mt (hcond4 t).mp h

-- A run of the tile body, in whichever case, at tile `t`'s arguments.
abbrev runAt {C1 C2 C3 C4 : grid0.Coords → Prop} (R : BodyRun (F := F) C1 C2 C3 C4) (c : Dev nD) (t : Fin cfg0.N) :=
  R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)

-- The tile number alone decides which of the four cases applies; this is that case's run on the input blocks.
def run0 (c : Dev nD) (t : Fin cfg0.N) :=
  (if h1 : t.val ≤ 2 then
    runAt kernelRun0_P1 c t ((hcond1 t).mpr h1) (ncond2_of t (by omega)) (ncond3_of t (by omega)) (ncond4_of t (by omega))
  else if h2 : 4 ≤ t.val ∧ t.val ≤ 32 then
    runAt kernelRun0_P2 c t (ncond1_of t h1) ((hcond2 t).mpr h2) (ncond3_of t (by omega)) (ncond4_of t (by omega))
  else if h3 : 34 ≤ t.val then
    runAt kernelRun0_P3 c t (ncond1_of t h1) (ncond2_of t h2) ((hcond3 t).mpr h3) (ncond4_of t (by omega))
  else
    runAt kernelRun0_S c t (ncond1_of t h1) (ncond2_of t h2) (ncond3_of t h3) ((hcond4 t).mpr (by omega)))
    (iblk m c 0 t) (iblk m c 1 t) (iblk m c 2 t) (iblk m c 3 t) (iblk m c 4 t) (iblk m c 5 t) (iblk m c 6 t)

-- In every case the pieces written cover the whole output block.
theorem cover0 (c : Dev nD) (t : Fin cfg0.N) (y : S2048x256.Idx) : ∃ p ∈ (run0 m c t).1, y ∈ p.fst.set := by
  unfold run0; repeat' split
  exacts [cover0_P1_7 .., cover0_P2_7 .., cover0_P3_7 .., cover0_S_7 ..]

-- What the output block holds after tile `t`: the pieces of the tile's run, written over anything.
def outAt0 (c : Dev nD) (t : Fin cfg0.N) : Vec F S2048x256 .f32 :=
  View.read (Elt F) VO0_7 (VO0_7.writes (Elt F) VO0_7.junk (run0 m c t).1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_7 (c : Dev nD) (t : Fin cfg0.N) : (dats m 0 c).after 7 t = outAt0 m c t := by dsimp only [dats]

-- The tile's run leaves the inputs as they are and its pieces cover the output block, so what is read back there does
-- not depend on what was there before.
theorem body_obligation (c : Dev nD) : BodyObligation (dats m 0 c) defs₀ Variants.none () Set.univ := fun t => by
  rw [bigSep_W0, bigSep_W0, idle7_false t]
  sl_whnfR [defs₀, Defs.onTc]
  simp only [before0_0_of m _ (A_eq m c 0) fun _ => by dsimp only [dats], before0_1_of m _ (A_eq m c 1) fun _ => by dsimp only [dats],
    before0_2_of m _ (A_eq m c 2) fun _ => by dsimp only [dats], before0_3_of m _ (A_eq m c 3) fun _ => by dsimp only [dats],
    before0_4_of m _ (A_eq m c 4) fun _ => by dsimp only [dats], before0_5_of m _ (A_eq m c 5) fun _ => by dsimp only [dats],
    before0_6_of m _ (A_eq m c 6) fun _ => by dsimp only [dats]]
  dsimp only [dats, outAt0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0 m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0 m c t)

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Hand

end
-- ==== Proof.KI.Entry.lean ====
import proofs.«426295_j69604239999073_3_alg».proof.Proof.Gen.KernelIdeal.Launch
import proofs.«426295_j69604239999073_3_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]

abbrev V (c : Dev nD) (b : Ref sig .tc) : Buf (Elt F) ((c : Thread nD τ).loc b) :=
  StableHlo.after stretches.flatten (fun b => m (c, b)) b

section Keep
variable {nD' : Nat} {τ' : Topo} {sig' : RefSig} {Val' : EltTy → Type}

abbrev WritesIn (ops : List (HloOp τ' sig' Val')) (W : List (Ref sig' .tc)) : Prop :=
  ops.Forall fun op => op.writes ⊆ (W.map (Proc.devRef (τ := τ') .tc)).toFinset

-- Induction on the stretches: each one keeps a reference outside its own list.
theorem after_flatten_keep {r : Ref sig' .tc} :
    ∀ (opss : List (List (HloOp τ' sig' Val'))) (Ws : List (List (Ref sig' .tc))) (V : Valuation τ' sig' Val'),
      List.Forall₂ WritesIn opss Ws → r ∉ Ws.flatten →
      StableHlo.after opss.flatten V (Proc.devRef .tc r) = V (Proc.devRef .tc r)
  | [], _, V, _, _ => by rw [List.flatten_nil, StableHlo.after_nil]
  | ops :: opss, W :: Ws, V, .cons h hs, hr => by
    rw [List.flatten_cons, List.mem_append, not_or] at hr
    rw [List.flatten_cons, StableHlo.after_append, after_flatten_keep opss Ws _ hs hr.2]
    exact StableHlo.after_of_writes_sub ops V h hr.1

end Keep

abbrev written : List (List (Ref sig .tc)) :=
  [[main_c, main_c_0],
   [main_call0_v0, main_call0_v1, main_call0_v2, main_call0_v3, main_call0_v4, main_v0],
   [main_c_1],
   [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v1],
   [main_c_2, main_v2, main_v3, main_v4, main_c_3],
   [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v5],
   [main_c_4, main_v6, main_v7, main_v8, main_c_5, main_c_6],
   [main_call3_v0, main_call3_v1, main_call3_v2, main_call3_v3, main_call3_v4, main_v9],
   [main_c_7, main_c_8],
   [main_call4_v0, main_call4_v1, main_call4_v2, main_call4_v3, main_call4_v4, main_v10],
   [main_c_9, main_c_10],
   [main_call5_v0, main_call5_v1, main_call5_v2, main_call5_v3, main_call5_v4, main_v11],
   [main_c_11, main_c_12],
   [main_call6_v0, main_call6_v1, main_call6_v2, main_call6_v3, main_call6_v4, main_v12],
   [main_c_13],
   [main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v13],
   [main_c_14, main_v14, main_v15, main_v16, main_c_15],
   [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v17],
   [main_c_16, main_v18, main_v19, main_v20, main_c_17, main_c_18],
   [main_call9_v0, main_call9_v1, main_call9_v2, main_call9_v3, main_call9_v4, main_v21],
   [main_c_19, main_c_20],
   [main_call10_v0, main_call10_v1, main_call10_v2, main_call10_v3, main_call10_v4, main_v22],
   [main_c_21, main_c_22],
   [main_call11_v0, main_call11_v1, main_call11_v2, main_call11_v3, main_call11_v4, main_v23],
   [main_c_23, main_c_24],
   [main_call12_v0, main_call12_v1, main_call12_v2, main_call12_v3, main_call12_v4, main_v24],
   [main_c_25],
   [main_call13_v0, main_call13_v1, main_call13_v2, main_call13_v3, main_call13_v4, main_call13_v5, main_call13_v6, main_call13_v7, main_call13_v8, main_call13_c, main_call13_v9, main_call13_v10, main_call13_v11, main_call13_c_0, main_call13_v12, main_call13_v13, main_v25],
   [main_c_26, main_v26, main_v27, main_v28, main_c_27],
   [main_call14_v0, main_call14_v1, main_call14_v2, main_call14_v3, main_call14_v4, main_call14_v5, main_call14_v6, main_call14_v7, main_call14_v8, main_call14_c, main_call14_v9, main_call14_v10, main_call14_v11, main_call14_c_0, main_call14_v12, main_call14_v13, main_v29],
   [main_c_28, main_v30, main_v31, main_v32, main_c_29, main_c_30],
   [main_call15_v0, main_call15_v1, main_call15_v2, main_call15_v3, main_call15_v4, main_v33],
   [main_c_31, main_c_32],
   [main_call16_v0, main_call16_v1, main_call16_v2, main_call16_v3, main_call16_v4, main_v34],
   [main_c_33, main_c_34],
   [main_call17_v0, main_call17_v1, main_call17_v2, main_call17_v3, main_call17_v4, main_v35],
   [main_c_35, main_v36, main_v37, main_c_36, main_v38, main_v39, main_c_37, main_v40, main_v41, main_v42, main_c_38, main_v43, main_v44, main_c_39, main_v45, main_v46, main_c_40, main_v47, main_v48, main_v49, main_c_41, main_v50, main_v51, main_c_42, main_v52, main_v53, main_c_43, main_v54, main_v55, main_v56, main_v57, main_v58, main_v59, main_c_44],
   [main_call18_v0, main_v60],
   [main_c_45],
   [main_call19_v0, main_v61],
   [main_c_46],
   [main_call20_v0, main_v62],
   [main_v63, main_v64, main_v65, main_v66]]

-- Every operation writes exactly its result, which its stretch's list names.
theorem stretches_writes : List.Forall₂ WritesIn (stretches (F := F)) written := by
  repeat' constructor
  all_goals
    simp only [WritesIn, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    repeat' apply And.intro
    all_goals exact List.mem_map_of_mem (by decide)

theorem V_of_not_written (c : Dev nD) (r : Ref sig .tc) (h : r ∉ written.flatten) : V m c r = m ((c : Thread nD τ).loc r) :=
  after_flatten_keep stretches written _ stretches_writes h

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub⟩)
    (by simp only [List.Forall]; repeat' constructor) main_chain

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Blocks
variable {c : Dev nD} (dat : Dat τ (Elt F) Unit ℕ (UR sig nD τ) ℕ cfg0 c)

theorem iblk_eq (w : Fin cfg0.W) (hA : dat.A w = V m c (Pipeline.arrRef spec0 w)) (t : Fin cfg0.N) : iblk m c w t = dat.blockOf w t := by
  unfold iblk Dat.blockOf; rw [hA]

theorem before0_0_of (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; exact iblk_eq m dat 0 hA t) t d).trans (iblk_eq m dat 0 hA t).symm
theorem before0_1_of (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; exact iblk_eq m dat 1 hA t) t d).trans (iblk_eq m dat 1 hA t).symm
theorem before0_2_of (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; exact iblk_eq m dat 2 hA t) t d).trans (iblk_eq m dat 2 hA t).symm
theorem before0_3_of (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; exact iblk_eq m dat 3 hA t) t d).trans (iblk_eq m dat 3 hA t).symm
theorem before0_4_of (hA : dat.A 4 = V m c (Pipeline.arrRef spec0 4)) (hafter : ∀ t, dat.after 4 t = iblk m c 4 t) (t : Fin cfg0.N) (d) :
    dat.before 4 t d = iblk m c 4 t :=
  (dat.before_in_eq_fetched 4 rfl (fun _ => rfl) (fun _ _ _ => rfl) (fun t => by rw [hafter]; exact iblk_eq m dat 4 hA t) t d).trans (iblk_eq m dat 4 hA t).symm
theorem before0_5_of (hA : dat.A 5 = V m c (Pipeline.arrRef spec0 5)) (hafter : ∀ t, dat.after 5 t = iblk m c 5 t) (t : Fin cfg0.N) (d) :
    dat.before 5 t d = iblk m c 5 t :=
  (dat.before_in_eq_fetched 5 rfl (fun _ => rfl) (fun _ _ _ => rfl) (fun t => by rw [hafter]; exact iblk_eq m dat 5 hA t) t d).trans (iblk_eq m dat 5 hA t).symm
theorem before0_6_of (hA : dat.A 6 = V m c (Pipeline.arrRef spec0 6)) (hafter : ∀ t, dat.after 6 t = iblk m c 6 t) (t : Fin cfg0.N) (d) :
    dat.before 6 t d = iblk m c 6 t :=
  (dat.before_in_eq_fetched 6 rfl (fun _ => rfl) (fun _ _ _ => rfl) (fun t => by rw [hafter]; exact iblk_eq m dat 6 hA t) t d).trans (iblk_eq m dat 6 hA t).symm

end Blocks

abbrev argRefs : List (Ref sig .tc) :=
  [main_arg0, main_arg1, main_arg2, main_arg3, main_arg4, main_arg5, main_arg6, main_arg7, main_arg8, main_arg9, main_arg10, main_arg11, main_arg12, main_arg13]

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      argRefs.Forall fun a => r.2.mem ((c.tc : Thread nD τ).loc a) = m ((c.tc : Thread nD τ).loc a)) :=
  (θ_run defs _ _).mono (fun _ h c => by
    repeat' apply And.intro
    all_goals exact ((h c).2 _ (Pipeline.mem_restRefs_of _ (by decide) (by decide))).trans (V_of_not_written m c _ (by decide))) h

end Cert.KernelIdeal.Hand

end
-- ==== Proof.KI.Runs.lean ====
import proofs.«426295_j69604239999073_3_alg».proof.Proof.Gen.KernelIdeal.Launch
import proofs.«426295_j69604239999073_3_alg».proof.Proof.Gen.KernelIdeal.Skeleton
import proofs.«426295_j69604239999073_3_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.Sem
open Cert.KernelIdeal Cert.KernelIdeal.Gen

variable {F : FTy → Type} [FloatOps F]

local notation "𝕄" => MT nD τ sig Unit (Elt F) ℕ (UR sig nD τ) ℕ

abbrev cond1 (i : grid0.Coords) : Prop := k0_cond1 i = 1#1
abbrev cond2 (i : grid0.Coords) : Prop := k0_cond2 i = 1#1
abbrev cond3 (i : grid0.Coords) : Prop := k0_cond3 i = 1#1
abbrev cond4 (i : grid0.Coords) : Prop := k0_cond4 i = 1#1

theorem hcond1 : ∀ t : Fin cfg0.N, cond1 (grid0.coords t) ↔ t.val ≤ 2 := by
  decide +kernel
theorem hcond2 : ∀ t : Fin cfg0.N, cond2 (grid0.coords t) ↔ 4 ≤ t.val ∧ t.val ≤ 32 := by
  decide +kernel
theorem hcond3 : ∀ t : Fin cfg0.N, cond3 (grid0.coords t) ↔ 34 ≤ t.val := by
  decide +kernel
theorem hcond4 : ∀ t : Fin cfg0.N, cond4 (grid0.coords t) ↔ t.val = 3 ∨ t.val = 33 := by
  decide +kernel

theorem idle7_false : ∀ t : Fin cfg0.N, cfg0.idle 7 (cfg0.grid.coords t) = false := by
  decide +kernel

abbrev VO0_7 : View sig .tc .vmem S2048x256 .f32 := (Memref.whole cc0_stg7_0 : Memref sig .tc .vmem S2048x256 .f32).view
variable (t : Fin cfg0.N)
abbrev ms0_0 : Memref sig .tc .vmem S2048 .i32 := win0_0.stage (cfg0.slots t 0)
abbrev hs0_0 : (ms0_0 t).IsWhole := hstage0_0 ((cfg0.slots t 0).cast nbuf0_0)
abbrev ms0_1 : Memref sig .tc .vmem S2048 .i32 := win0_1.stage (cfg0.slots t 1)
abbrev hs0_1 : (ms0_1 t).IsWhole := hstage0_1 ((cfg0.slots t 1).cast nbuf0_1)
abbrev ms0_2 : Memref sig .tc .vmem S2048 .i32 := win0_2.stage (cfg0.slots t 2)
abbrev hs0_2 : (ms0_2 t).IsWhole := hstage0_2 ((cfg0.slots t 2).cast nbuf0_2)
abbrev ms0_3 : Memref sig .tc .vmem S728x256 .bf16 := win0_3.stage (cfg0.slots t 3)
abbrev hs0_3 : (ms0_3 t).IsWhole := hstage0_3 ((cfg0.slots t 3).cast nbuf0_3)
abbrev ms0_4 : Memref sig .tc .vmem S728x256 .bf16 := win0_4.stage (cfg0.slots t 4)
abbrev hs0_4 : (ms0_4 t).IsWhole := hstage0_4 ((cfg0.slots t 4).cast nbuf0_4)
abbrev ms0_5 : Memref sig .tc .vmem S1x256 .f32 := win0_5.stage (cfg0.slots t 5)
abbrev hs0_5 : (ms0_5 t).IsWhole := hstage0_5 ((cfg0.slots t 5).cast nbuf0_5)
abbrev ms0_6 : Memref sig .tc .vmem S1x256 .f32 := win0_6.stage (cfg0.slots t 6)
abbrev hs0_6 : (ms0_6 t).IsWhole := hstage0_6 ((cfg0.slots t 6).cast nbuf0_6)
abbrev ms0_7 : Memref sig .tc .vmem S2048x256 .f32 := win0_7.stage (cfg0.slots t 7)
abbrev hs0_7 : (ms0_7 t).IsWhole := hstage0_7 ((cfg0.slots t 7).cast nbuf0_7)

/-- A whole memref owned at `X` is its points-to at the one raw contents that read `X`. -/
theorem owns_unread (c : Dev nD) {sp : Space} {sh : Shape} {e : EltTy} {a : Memref sig .tc sp sh e} (h : a.IsWhole)
    (X : sh.Idx → Elt F e) :
    (owns (c : Thread nD τ) a fullShare X : sProp 𝕄) = (a.view.loc (c : Thread nD τ) ↦[a.view.set]{fullShare} h.unread X) := by
  have h₁ : (owns (c : Thread nD τ) a fullShare X : sProp 𝕄) ⊢ (a.view.loc (c : Thread nD τ) ↦[a.view.set]{fullShare} h.unread X) := by
    unfold owns; iintro ⟨%f, %hf, H⟩; obtain rfl := h.eq_unread hf; iexact H
  have h₂ := owns_intro (Ix := Unit) (Name := ℕ) (U := UR sig nD τ) (Lvl := ℕ) (c : Thread nD τ) a fullShare (h.unread X)
  rw [h.read_unread] at h₂
  exact BI.equiv_iff.mp ⟨h₁, h₂⟩

/-- A run of the tile body in the control case `C1 .. C4`: the pieces it stores in the output block, the seven inputs kept. -/
abbrev BodyRun (C1 C2 C3 C4 : grid0.Coords → Prop) :=
  ∀ (c : Dev nD) (i : grid0.Coords) (arg1 : Memref sig .tc .vmem S2048 .i32) (harg1 : arg1.IsWhole) (arg2 : Memref sig .tc .vmem S2048 .i32) (harg2 : arg2.IsWhole) (arg3 : Memref sig .tc .vmem S2048 .i32) (harg3 : arg3.IsWhole) (arg4 : Memref sig .tc .vmem S728x256 .bf16) (harg4 : arg4.IsWhole) (arg5 : Memref sig .tc .vmem S728x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole),
    C1 i → C2 i → C3 i → C4 i → ∀ (x0 x1 x2 : Vec F S2048 .i32) (x3 x4 : Vec F S728x256 .bf16) (x5 x6 : Vec F S1x256 .f32),
    { L7 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) Variants.none c none) E (cc0_kernel i arg1 harg1 arg2 harg2 arg3 harg3 arg4 harg4 arg5 harg5 arg6 harg6 arg7 harg7 arg8 harg8) K }

end Cert.KernelIdeal.Hand

end
-- ==== Proof.KI.RunP1.lean ====
import proofs.«426295_j69604239999073_3_alg».proof.Proof.KI.Runs

noncomputable section

namespace Cert.KernelIdeal.Hand

open Idealize.ShloMosaic Cert.KernelIdeal Cert.KernelIdeal.Gen

variable {F : FTy → Type} [FloatOps F]

set_option maxHeartbeats 4000000 in
def kernelRun0_P1 : BodyRun (F := F) cond1 (¬cond2 ·) (¬cond3 ·) (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part1_eq_skeleton]; unfold k0_part1_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.KernelIdeal.Hand

end
-- ==== Proof.KI.RunP2.lean ====
import proofs.«426295_j69604239999073_3_alg».proof.Proof.KI.RunP1

noncomputable section

namespace Cert.KernelIdeal.Hand

open Idealize.ShloMosaic Cert.KernelIdeal Cert.KernelIdeal.Gen

variable {F : FTy → Type} [FloatOps F]

set_option maxHeartbeats 4000000 in
def kernelRun0_P2 : BodyRun (F := F) (¬cond1 ·) cond2 (¬cond3 ·) (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part2_eq_skeleton]; unfold k0_part2_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.KernelIdeal.Hand

end
-- ==== Proof.KI.RunP3.lean ====
import proofs.«426295_j69604239999073_3_alg».proof.Proof.KI.RunP2

noncomputable section

namespace Cert.KernelIdeal.Hand

open Idealize.ShloMosaic Cert.KernelIdeal Cert.KernelIdeal.Gen

variable {F : FTy → Type} [FloatOps F]

set_option maxHeartbeats 4000000 in
def kernelRun0_P3 : BodyRun (F := F) (¬cond1 ·) (¬cond2 ·) cond3 (¬cond4 ·) := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [k0_part3_eq_skeleton]; unfold k0_part3_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.KernelIdeal.Hand

end
-- ==== Proof.KI.RunS.lean ====
import proofs.«426295_j69604239999073_3_alg».proof.Proof.KI.RunP3

noncomputable section

namespace Cert.KernelIdeal.Hand

open Idealize.ShloMosaic Cert.KernelIdeal Cert.KernelIdeal.Gen

variable {F : FTy → Type} [FloatOps F]

set_option maxHeartbeats 4000000 in
def kernelRun0_S : BodyRun (F := F) (¬cond1 ·) (¬cond2 ·) (¬cond3 ·) cond4 := by
  intro c i arg1 h1 arg2 h2 arg3 h3 arg4 h4 arg5 h5 arg6 h6 arg7 h7 arg8 h8 hc1 hc2 hc3 hc4 x0 x1 x2 x3 x4 x5 x6
  refine ⟨?_, fun E K => ?run⟩
  case run =>
    simp only [cc0_kernel_eq_skeleton]; unfold cc0_kernel_skel
    simp only [owns_unread c h1, owns_unread c h2, owns_unread c h3, owns_unread c h4, owns_unread c h5, owns_unread c h6, owns_unread c h7]
    unfold owns
    iintro ⟨H0, H1, H2, H3, H4, H5, H6, ⟨%d7, %f7, -, H7⟩, Hk⟩
    sl_exec (disch := assumption)
    sl_step
    iapply Hk
    iframe H0 H1 H2 H3 H4 H5 H6
    iexists _; iexact H7

end Cert.KernelIdeal.Hand

end
-- ==== Proof.KI.Pieces.lean ====
import proofs.«426295_j69604239999073_3_alg».proof.Proof.KI.RunS
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Rows `base`, `base + 1`, … of the [728, 256] table as an array of shape `S`, indices taken modulo the table's extents. -/
def tabSlice (base : ℕ) (S : Shape) (x : Vec F S728x256 .bf16) : Vec F S .bf16 := fun j =>
  x (ix2 (n0 := 728) (n1 := 256)
    ⟨(base + (if h : 0 < S.rank then (j ⟨0, h⟩).val else 0)) % 728, Nat.mod_lt _ (by decide)⟩
    ⟨(if h : 1 < S.rank then (j ⟨1, h⟩).val else 0) % 256, Nat.mod_lt _ (by decide)⟩)

theorem tabSlice_apply (base n : ℕ) (hn : base + n ≤ 728) (x : Vec F S728x256 .bf16) (r : Fin n) (f : Fin 256) :
    tabSlice base (⟨2, ![n, 256]⟩ : Shape) x (ix2 r f) = x (ix2 (n0 := 728) (n1 := 256) ⟨base + r.val, by omega⟩ f) := by
  show x (ix2 ⟨(base + r.val) % 728, _⟩ ⟨f.val % 256, _⟩) = _
  simp only [Nat.mod_eq_of_lt (show base + r.val < 728 by omega), Nat.mod_eq_of_lt f.isLt]

/-- A load of `n` rows from row `base` on reads that block of rows of the table. -/
theorem ld_tabSlice (base n : ℕ) (inb : ∀ a, (![base, 0] : Fin 2 → ℕ) a + (![n, 256] : Fin 2 → ℕ) a ≤ S728x256.size a)
    (x : Vec F S728x256 .bf16) :
    View.ld x (Rect.unit (s := S728x256) ![base, 0] ![n, 256] inb) = tabSlice base (⟨2, ![n, 256]⟩ : Shape) x := by
  have hn : base + n ≤ 728 := by have := inb 0; simpa using this
  funext j
  obtain ⟨r, f, rfl⟩ : ∃ (r : Fin n) (f : Fin 256), j = ix2 r f := ⟨j 0, j 1, eq_ix2 j⟩
  rw [tabSlice_apply base n hn]
  show x ((Rect.unit (s := S728x256) ![base, 0] ![n, 256] inb).idx (ix2 r f)) = _
  refine congrArg x (funext fun a => Fin.ext ?_)
  match a with
  | ⟨0, _⟩ => show base + 1 * r.val = base + r.val; omega
  | ⟨1, _⟩ => show 0 + 1 * f.val = f.val; omega

theorem hz1 : (![0] : Fin 1 → ℕ) = fun _ => 0 := funext fun a => by fin_cases a <;> rfl
theorem hz2 : (![0, 0] : Fin 2 → ℕ) = fun _ => 0 := funext fun a => by fin_cases a <;> rfl

variable (c : Dev nD) (i : grid0.Coords) (arg1 : Memref sig .tc .vmem S2048 .i32) (harg1 : arg1.IsWhole) (arg2 : Memref sig .tc .vmem S2048 .i32) (harg2 : arg2.IsWhole) (arg3 : Memref sig .tc .vmem S2048 .i32) (harg3 : arg3.IsWhole) (arg4 : Memref sig .tc .vmem S728x256 .bf16) (harg4 : arg4.IsWhole) (arg5 : Memref sig .tc .vmem S728x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole)

section
variable (hc1 : cond1 i) (hc2 : ¬cond2 i) (hc3 : ¬cond3 i) (hc4 : ¬cond4 i) (x0 x1 x2 : Vec F S2048 .i32) (x3 x4 : Vec F S728x256 .bf16) (x5 x6 : Vec F S1x256 .f32)

theorem cover0_P1_7 : ∀ y : S2048x256.Idx, ∃ pc ∈ (kernelRun0_P1 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P1_7 : Vec F S2048x256 .f32 :=
  VO0_7.read (Elt F) (VO0_7.writes (Elt F) VO0_7.junk (kernelRun0_P1 c i arg1 harg1 arg2 harg2 arg3 harg3 arg4 harg4 arg5 harg5 arg6 harg6 arg7 harg7 arg8 harg8 hc1 hc2 hc3 hc4 x0 x1 x2 x3 x4 x5 x6).1)

theorem out0_P1_7_eq : out0_P1_7 c i arg1 harg1 arg2 harg2 arg3 harg3 arg4 harg4 arg5 harg5 arg6 harg6 arg7 harg7 arg8 harg8 hc1 hc2 hc3 hc4 x0 x1 x2 x3 x4 x5 x6 = k0_pay6 x5 x6 (k0_pay10 (k0_pay1 x0) (k0_pay2 x1) (k0_pay3 x2) (tabSlice 0 S104x256 x3) (tabSlice 0 S104x256 x4)) := by
  unfold out0_P1_7
  rw [View.read_writes_junk_eq_canon]
  unfold kernelRun0_P1
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : cond2 i) (hc3 : ¬cond3 i) (hc4 : ¬cond4 i) (x0 x1 x2 : Vec F S2048 .i32) (x3 x4 : Vec F S728x256 .bf16) (x5 x6 : Vec F S1x256 .f32)

theorem cover0_P2_7 : ∀ y : S2048x256.Idx, ∃ pc ∈ (kernelRun0_P2 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P2_7 : Vec F S2048x256 .f32 :=
  VO0_7.read (Elt F) (VO0_7.writes (Elt F) VO0_7.junk (kernelRun0_P2 c i arg1 harg1 arg2 harg2 arg3 harg3 arg4 harg4 arg5 harg5 arg6 harg6 arg7 harg7 arg8 harg8 hc1 hc2 hc3 hc4 x0 x1 x2 x3 x4 x5 x6).1)

theorem out0_P2_7_eq : out0_P2_7 c i arg1 harg1 arg2 harg2 arg3 harg3 arg4 harg4 arg5 harg5 arg6 harg6 arg7 harg7 arg8 harg8 hc1 hc2 hc3 hc4 x0 x1 x2 x3 x4 x5 x6 = k0_pay7 x5 x6 (k0_pay11 (k0_pay1 x0) (k0_pay2 x1) (k0_pay3 x2) (tabSlice 104 S208x256 x3) (tabSlice 104 S208x256 x4)) := by
  unfold out0_P2_7
  rw [View.read_writes_junk_eq_canon]
  unfold kernelRun0_P2
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : ¬cond2 i) (hc3 : cond3 i) (hc4 : ¬cond4 i) (x0 x1 x2 : Vec F S2048 .i32) (x3 x4 : Vec F S728x256 .bf16) (x5 x6 : Vec F S1x256 .f32)

theorem cover0_P3_7 : ∀ y : S2048x256.Idx, ∃ pc ∈ (kernelRun0_P3 c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_P3_7 : Vec F S2048x256 .f32 :=
  VO0_7.read (Elt F) (VO0_7.writes (Elt F) VO0_7.junk (kernelRun0_P3 c i arg1 harg1 arg2 harg2 arg3 harg3 arg4 harg4 arg5 harg5 arg6 harg6 arg7 harg7 arg8 harg8 hc1 hc2 hc3 hc4 x0 x1 x2 x3 x4 x5 x6).1)

theorem out0_P3_7_eq : out0_P3_7 c i arg1 harg1 arg2 harg2 arg3 harg3 arg4 harg4 arg5 harg5 arg6 harg6 arg7 harg7 arg8 harg8 hc1 hc2 hc3 hc4 x0 x1 x2 x3 x4 x5 x6 = k0_pay8 x5 x6 (k0_pay12 (k0_pay1 x0) (k0_pay2 x1) (k0_pay3 x2) (tabSlice 312 S416x256 x3) (tabSlice 312 S416x256 x4)) := by
  unfold out0_P3_7
  rw [View.read_writes_junk_eq_canon]
  unfold kernelRun0_P3
  dsimp only
  sl_unfold_words
  rw [View.canon_unit_zero hz2]
  simp only [View.readAt_eq_ld, Memref.IsWhole.read_unread, View.ld_unit_zero (S := S2048) hz1, View.ld_unit_zero (S := S1x256) hz2, ld_tabSlice]
end

section
variable (hc1 : ¬cond1 i) (hc2 : ¬cond2 i) (hc3 : ¬cond3 i) (hc4 : cond4 i) (x0 x1 x2 : Vec F S2048 .i32) (x3 x4 : Vec F S728x256 .bf16) (x5 x6 : Vec F S1x256 .f32)

theorem cover0_S_7 : ∀ y : S2048x256.Idx, ∃ pc ∈ (kernelRun0_S c i arg1 harg1 arg2 harg2 arg3 harg3 arg4 harg4 arg5 harg5 arg6 harg6 arg7 harg7 arg8 harg8 hc1 hc2 hc3 hc4 x0 x1 x2 x3 x4 x5 x6).1, y ∈ pc.1.set :=
  View.cover_of_tiledL _ S2048x256.size (by sl_kernel_rfl)

def out0_S_7 : Vec F S2048x256 .f32 :=
  VO0_7.read (Elt F) (VO0_7.writes (Elt F) VO0_7.junk (kernelRun0_S c i arg1 harg1 arg2 harg2 arg3 harg3 arg4 harg4 arg5 harg5 arg6 harg6 arg7 harg7 arg8 harg8 hc1 hc2 hc3 hc4 x0 x1 x2 x3 x4 x5 x6).1)

theorem out0_S_7_eq : out0_S_7 c i arg1 harg1 arg2 harg2 arg3 harg3 arg4 harg4 arg5 harg5 arg6 harg6 arg7 harg7 arg8 harg8 hc1 hc2 hc3 hc4 x0 x1 x2 x3 x4 x5 x6 = k0_pay9 x0 x1 x2 x5 x6 x3 x4 := by
  unfold out0_S_7
  rw [View.read_writes_junk_eq_canon]
  unfold kernelRun0_S
  dsimp only
  sl_unfold_words
  rw [View.canon_unit_zero hz2]
  simp only [View.readAt_eq_ld, Memref.IsWhole.read_unread, View.ld_unit_zero (S := S2048) hz1, View.ld_unit_zero (S := S1x256) hz2, View.ld_unit_zero (S := S728x256) hz2]
end

end Cert.KernelIdeal.Hand

end
-- ==== Proof.KI.Frame.lean ====
import proofs.«426295_j69604239999073_3_alg».proof.Proof.KI.Entry
import proofs.«426295_j69604239999073_3_alg».proof.Proof.KI.Pieces

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

variable (m : (ℓ : Loc nD τ sig) → Buf (Elt F) ℓ) (ρ : Dev nD → PrngReg)

theorem ncond1_of (t : Fin cfg0.N) (h : ¬t.val ≤ 2) : ¬cond1 (grid0.coords t) := mt (hcond1 t).mp h
theorem ncond2_of (t : Fin cfg0.N) (h : ¬(4 ≤ t.val ∧ t.val ≤ 32)) : ¬cond2 (grid0.coords t) := mt (hcond2 t).mp h
theorem ncond3_of (t : Fin cfg0.N) (h : ¬34 ≤ t.val) : ¬cond3 (grid0.coords t) := mt (hcond3 t).mp h
theorem ncond4_of (t : Fin cfg0.N) (h : ¬(t.val = 3 ∨ t.val = 33)) : ¬cond4 (grid0.coords t) := mt (hcond4 t).mp h

-- A run of the tile body, in whichever case, at tile `t`'s arguments.
abbrev runAt {C1 C2 C3 C4 : grid0.Coords → Prop} (R : BodyRun (F := F) C1 C2 C3 C4) (c : Dev nD) (t : Fin cfg0.N) :=
  R c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)

-- The tile number alone decides which of the four cases applies; this is that case's run on the input blocks.
def run0 (c : Dev nD) (t : Fin cfg0.N) :=
  (if h1 : t.val ≤ 2 then
    runAt kernelRun0_P1 c t ((hcond1 t).mpr h1) (ncond2_of t (by omega)) (ncond3_of t (by omega)) (ncond4_of t (by omega))
  else if h2 : 4 ≤ t.val ∧ t.val ≤ 32 then
    runAt kernelRun0_P2 c t (ncond1_of t h1) ((hcond2 t).mpr h2) (ncond3_of t (by omega)) (ncond4_of t (by omega))
  else if h3 : 34 ≤ t.val then
    runAt kernelRun0_P3 c t (ncond1_of t h1) (ncond2_of t h2) ((hcond3 t).mpr h3) (ncond4_of t (by omega))
  else
    runAt kernelRun0_S c t (ncond1_of t h1) (ncond2_of t h2) (ncond3_of t h3) ((hcond4 t).mpr (by omega)))
    (iblk m c 0 t) (iblk m c 1 t) (iblk m c 2 t) (iblk m c 3 t) (iblk m c 4 t) (iblk m c 5 t) (iblk m c 6 t)

-- In every case the pieces written cover the whole output block.
theorem cover0 (c : Dev nD) (t : Fin cfg0.N) (y : S2048x256.Idx) : ∃ p ∈ (run0 m c t).1, y ∈ p.fst.set := by
  unfold run0; repeat' split
  exacts [cover0_P1_7 .., cover0_P2_7 .., cover0_P3_7 .., cover0_S_7 ..]

-- What the output block holds after tile `t`: the pieces of the tile's run, written over anything.
def outAt0 (c : Dev nD) (t : Fin cfg0.N) : Vec F S2048x256 .f32 :=
  View.read (Elt F) VO0_7 (VO0_7.writes (Elt F) VO0_7.junk (run0 m c t).1)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt0 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_7 (c : Dev nD) (t : Fin cfg0.N) : (dats m 0 c).after 7 t = outAt0 m c t := by dsimp only [dats]

-- The tile's run leaves the inputs as they are and its pieces cover the output block, so what is read back there does
-- not depend on what was there before.
theorem body_obligation (c : Dev nD) : BodyObligation (dats m 0 c) defs₀ Variants.none () Set.univ := fun t => by
  rw [bigSep_W0, bigSep_W0, idle7_false t]
  sl_whnfR [defs₀, Defs.onTc]
  simp only [before0_0_of m _ (A_eq m c 0) fun _ => by dsimp only [dats], before0_1_of m _ (A_eq m c 1) fun _ => by dsimp only [dats],
    before0_2_of m _ (A_eq m c 2) fun _ => by dsimp only [dats], before0_3_of m _ (A_eq m c 3) fun _ => by dsimp only [dats],
    before0_4_of m _ (A_eq m c 4) fun _ => by dsimp only [dats], before0_5_of m _ (A_eq m c 5) fun _ => by dsimp only [dats],
    before0_6_of m _ (A_eq m c 6) fun _ => by dsimp only [dats]]
  dsimp only [dats, outAt0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run0 m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0 m c t)

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.RefOps.lean ====
import proofs.«426295_j69604239999073_3_alg».proof.Proof.Gen.ReferenceIdeal
import Idealize.ShloMosaic.Lib.StableHlo.Run

set_option maxHeartbeats 40000000

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The contents of a buffer of type T.
abbrev Cts (F : FTy → Type) (T : BufTy) : Type := T.Contents (Elt F)

-- The floor quotient of x by the scalar k: the truncated quotient, less one where the signs differ and the remainder is not zero.
abbrev quotOps {s : Shape} (bc : S_.BroadcastsInDim s (![] : Fin 0 → Fin s.rank))
    (k v0 v4 c c_0 : TRef sig ⟨S_, .i32⟩) (x v1 v2 v3 v5 v7 v8 v9 v12 v13 w : TRef sig ⟨s, .i32⟩)
    (v6 v10 v11 : TRef sig ⟨s, .i1⟩) : List (HloOp τ sig (Elt F)) :=
  [ TRef.unary k v0 id,
    TRef.unary v0 v1 (broadcastInDim s ![] bc),
    TRef.binary x v1 v2 Host.divsi,
    TRef.unary x v3 signi,
    TRef.unary v0 v4 signi,
    TRef.unary v4 v5 (broadcastInDim s ![] bc),
    TRef.binary v3 v5 v6 (cmpi .ne),
    TRef.unary v0 v7 (broadcastInDim s ![] bc),
    TRef.binary x v7 v8 Host.remsi,
    TRef.nullary c (constantI S_ 32 0#32),
    TRef.unary c v9 (broadcastInDim s ![] bc),
    TRef.binary v8 v9 v10 (cmpi .ne),
    TRef.binary v6 v10 v11 andi,
    TRef.nullary c_0 (constantI S_ 32 1#32),
    TRef.unary c_0 v12 (broadcastInDim s ![] bc),
    TRef.binary v2 v12 v13 subi,
    TRef.ternary v11 v13 v2 w select ]

-- The remainder of x by the scalar k (by 1 where k is 0), with the divisor added where it is not zero and its sign differs from the divisor's.
abbrev remOps {s : Shape} (bc : S_.BroadcastsInDim s (![] : Fin 0 → Fin s.rank))
    (k v0 c c_0 w c_1 c_2 c_3 : TRef sig ⟨S_, .i32⟩) (v1 v9 : TRef sig ⟨S_, .i1⟩)
    (x v3 v4 v5 v7 v13 v14 v15 : TRef sig ⟨s, .i32⟩) (v6 v8 v10 v11 v12 : TRef sig ⟨s, .i1⟩) :
    List (HloOp τ sig (Elt F)) :=
  [ TRef.unary k v0 id,
    TRef.nullary c (constantI S_ 32 0#32),
    TRef.binary v0 c v1 (cmpi .eq),
    TRef.nullary c_0 (constantI S_ 32 1#32),
    TRef.ternary v1 c_0 v0 w select,
    TRef.unary w v3 (broadcastInDim s ![] bc),
    TRef.binary x v3 v4 Host.remsi,
    TRef.nullary c_1 (constantI S_ 32 0#32),
    TRef.unary c_1 v5 (broadcastInDim s ![] bc),
    TRef.binary v4 v5 v6 (cmpi .ne),
    TRef.nullary c_2 (constantI S_ 32 0#32),
    TRef.unary c_2 v7 (broadcastInDim s ![] bc),
    TRef.binary v4 v7 v8 (cmpi .slt),
    TRef.nullary c_3 (constantI S_ 32 0#32),
    TRef.binary w c_3 v9 (cmpi .slt),
    TRef.unary v9 v10 (broadcastInDim s ![] bc),
    TRef.binary v8 v10 v11 (cmpi .ne),
    TRef.binary v11 v6 v12 andi,
    TRef.unary w v13 (broadcastInDim s ![] bc),
    TRef.binary v4 v13 v14 addi,
    TRef.ternary v12 v14 v4 v15 select ]

-- Whether the index i is negative, and i plus the table's height h; then t.
abbrev wrapOps {s : Shape} (bc : S_.BroadcastsInDim s (![] : Fin 0 → Fin s.rank)) (h : BitVec 32)
    (c0 c1 : TRef sig ⟨S_, .i32⟩) (i z hb sum : TRef sig ⟨s, .i32⟩) (neg : TRef sig ⟨s, .i1⟩)
    (t : List (HloOp τ sig (Elt F))) : List (HloOp τ sig (Elt F)) :=
  TRef.nullary c0 (constantI S_ 32 0#32) ::
  TRef.unary c0 z (broadcastInDim s ![] bc) ::
  TRef.binary i z neg (cmpi .slt) ::
  TRef.nullary c1 (constantI S_ 32 h) ::
  TRef.unary c1 hb (broadcastInDim s ![] bc) ::
  TRef.binary i hb sum addi :: t

-- The index, wrapped by the height where it is negative, as a column, and the table's rows at it; then t.
abbrev pickOps {s s1 st so : Shape} {d : Fin s.rank → Fin s1.rank} (b1 : s.BroadcastsInDim s1 d) (g : GatherDims st s1 so)
    (neg : TRef sig ⟨s, .i1⟩) (sum i sel : TRef sig ⟨s, .i32⟩) (col : TRef sig ⟨s1, .i32⟩)
    (tab : TRef sig ⟨st, .f32⟩) (out : TRef sig ⟨so, .f32⟩)
    (t : List (HloOp τ sig (Elt F))) : List (HloOp τ sig (Elt F)) :=
  TRef.ternary neg sum i sel select ::
  TRef.unary sel col (broadcastInDim s1 d b1) ::
  TRef.binary tab col out (fun x j => Host.gather g x j) :: t

-- The same, and the rows added to the sum so far.
abbrev pickAddOps {s s1 st so : Shape} {d : Fin s.rank → Fin s1.rank} (b1 : s.BroadcastsInDim s1 d) (g : GatherDims st s1 so)
    (neg : TRef sig ⟨s, .i1⟩) (sum i sel : TRef sig ⟨s, .i32⟩) (col : TRef sig ⟨s1, .i32⟩)
    (tab : TRef sig ⟨st, .f32⟩) (out acc res : TRef sig ⟨so, .f32⟩)
    (t : List (HloOp τ sig (Elt F))) : List (HloOp τ sig (Elt F)) :=
  pickOps b1 g neg sum i sel col tab out (TRef.binary acc out res addf :: t)

-- Level 1 (8000 flat indices i): the floor quotient ⌊i / 200⌋.
abbrev seg1A : List (HloOp τ sig (Elt F)) :=
  nullary main_c (constantI S_ 32 200#32) ::
    quotOps bcast_S_S8000 (.of main_c) main_call0.v0 main_call0.v4 main_call0.c main_call0.c_0 (.of main_arg0) main_call0.v1 main_call0.v2 main_call0.v3 main_call0.v5 main_call0.v7 main_call0.v8 main_call0.v9 main_call0.v12 main_call0.v13 main_call0.call0.v0 main_call0.v6 main_call0.v10 main_call0.v11

-- The remainder r = i mod 200, with the sign of the divisor.
abbrev seg1B : List (HloOp τ sig (Elt F)) :=
  nullary main_c_0 (constantI S_ 32 200#32) ::
    remOps bcast_S_S8000 (.of main_c_0) main_call1.v0 main_call1.c main_call1.c_0 main_call1.call0.v0 main_call1.c_1 main_call1.c_2 main_call1.c_3 main_call1.v1 main_call1.v9 (.of main_arg0) main_call1.v3 main_call1.v4 main_call1.v5 main_call1.v7 main_call1.v13 main_call1.v14 main_call1.v15 main_call1.v6 main_call1.v8 main_call1.v10 main_call1.v11 main_call1.v12

-- The floor quotient ⌊r / 4⌋.
abbrev seg1C : List (HloOp τ sig (Elt F)) :=
  nullary main_c_1 (constantI S_ 32 4#32) ::
    quotOps bcast_S_S8000 (.of main_c_1) main_call2.v0 main_call2.v4 main_call2.c main_call2.c_0 (.of main_v1) main_call2.v1 main_call2.v2 main_call2.v3 main_call2.v5 main_call2.v7 main_call2.v8 main_call2.v9 main_call2.v12 main_call2.v13 main_call2.call0.v0 main_call2.v6 main_call2.v10 main_call2.v11

-- The remainder r mod 4.
abbrev seg1D : List (HloOp τ sig (Elt F)) :=
  nullary main_c_2 (constantI S_ 32 4#32) ::
    remOps bcast_S_S8000 (.of main_c_2) main_call3.v0 main_call3.c main_call3.c_0 main_call3.call0.v0 main_call3.c_1 main_call3.c_2 main_call3.c_3 main_call3.v1 main_call3.v9 (.of main_v1) main_call3.v3 main_call3.v4 main_call3.v5 main_call3.v7 main_call3.v13 main_call3.v14 main_call3.v15 main_call3.v6 main_call3.v8 main_call3.v10 main_call3.v11 main_call3.v12

-- The rows of the three tables at the three decoded indices (a negative index wraps by the table's height), summed.
abbrev seg1E : List (HloOp τ sig (Elt F)) :=
  wrapOps bcast_S_S8000 50#32 (.of main_c_3) (.of main_c_4) (.of main_v0) (.of main_v4) (.of main_v6) (.of main_v7) (.of main_v5) <|
  pickOps bcast_S8000_S8000x1_0 gather_S50x256_S8000x1_S8000x256_1_0_n_n_0_1_1256 (.of main_v5) (.of main_v7) (.of main_v0) (.of main_v8) (.of main_v9) (.of main_arg3) (.of main_v10) <|
  wrapOps bcast_S_S8000 50#32 (.of main_c_5) (.of main_c_6) (.of main_v2) (.of main_v11) (.of main_v13) (.of main_v14) (.of main_v12) <|
  pickAddOps bcast_S8000_S8000x1_0 gather_S50x256_S8000x1_S8000x256_1_0_n_n_0_1_1256 (.of main_v12) (.of main_v14) (.of main_v2) (.of main_v15) (.of main_v16) (.of main_arg4) (.of main_v17) (.of main_v10) (.of main_v18) <|
  wrapOps bcast_S_S8000 4#32 (.of main_c_7) (.of main_c_8) (.of main_v3) (.of main_v19) (.of main_v21) (.of main_v22) (.of main_v20) <|
  pickAddOps bcast_S8000_S8000x1_0 gather_S4x256_S8000x1_S8000x256_1_0_n_n_0_1_1256 (.of main_v20) (.of main_v22) (.of main_v3) (.of main_v23) (.of main_v24) (.of main_arg5) (.of main_v25) (.of main_v18) (.of main_v26) []

-- Level 2 (60000 flat indices): the same five blocks with the divisors 800 and 8.
abbrev seg2A : List (HloOp τ sig (Elt F)) :=
  nullary main_c_9 (constantI S_ 32 800#32) ::
    quotOps bcast_S_S60000 (.of main_c_9) main_call4.v0 main_call4.v4 main_call4.c main_call4.c_0 (.of main_arg1) main_call4.v1 main_call4.v2 main_call4.v3 main_call4.v5 main_call4.v7 main_call4.v8 main_call4.v9 main_call4.v12 main_call4.v13 main_call4.call0.v0 main_call4.v6 main_call4.v10 main_call4.v11

abbrev seg2B : List (HloOp τ sig (Elt F)) :=
  nullary main_c_10 (constantI S_ 32 800#32) ::
    remOps bcast_S_S60000 (.of main_c_10) main_call5.v0 main_call5.c main_call5.c_0 main_call5.call0.v0 main_call5.c_1 main_call5.c_2 main_call5.c_3 main_call5.v1 main_call5.v9 (.of main_arg1) main_call5.v3 main_call5.v4 main_call5.v5 main_call5.v7 main_call5.v13 main_call5.v14 main_call5.v15 main_call5.v6 main_call5.v8 main_call5.v10 main_call5.v11 main_call5.v12

abbrev seg2C : List (HloOp τ sig (Elt F)) :=
  nullary main_c_11 (constantI S_ 32 8#32) ::
    quotOps bcast_S_S60000 (.of main_c_11) main_call6.v0 main_call6.v4 main_call6.c main_call6.c_0 (.of main_v28) main_call6.v1 main_call6.v2 main_call6.v3 main_call6.v5 main_call6.v7 main_call6.v8 main_call6.v9 main_call6.v12 main_call6.v13 main_call6.call0.v0 main_call6.v6 main_call6.v10 main_call6.v11

abbrev seg2D : List (HloOp τ sig (Elt F)) :=
  nullary main_c_12 (constantI S_ 32 8#32) ::
    remOps bcast_S_S60000 (.of main_c_12) main_call7.v0 main_call7.c main_call7.c_0 main_call7.call0.v0 main_call7.c_1 main_call7.c_2 main_call7.c_3 main_call7.v1 main_call7.v9 (.of main_v28) main_call7.v3 main_call7.v4 main_call7.v5 main_call7.v7 main_call7.v13 main_call7.v14 main_call7.v15 main_call7.v6 main_call7.v8 main_call7.v10 main_call7.v11 main_call7.v12

-- The rest of level 2's last block: the second part of @main begins with it.
abbrev opsL2b : List (HloOp τ sig (Elt F)) :=
  pickAddOps bcast_S60000_S60000x1_0 gather_S100x256_S60000x1_S60000x256_1_0_n_n_0_1_1256 (.of main_v39) (.of main_v41) (.of main_v29) (.of main_v42) (.of main_v43) (.of main_arg7) (.of main_v44) (.of main_v37) (.of main_v45) <|
  wrapOps bcast_S_S60000 8#32 (.of main_c_17) (.of main_c_18) (.of main_v30) (.of main_v46) (.of main_v48) (.of main_v49) (.of main_v47) <|
  pickAddOps bcast_S60000_S60000x1_0 gather_S8x256_S60000x1_S60000x256_1_0_n_n_0_1_1256 (.of main_v47) (.of main_v49) (.of main_v30) (.of main_v50) (.of main_v51) (.of main_arg8) (.of main_v52) (.of main_v45) (.of main_v53) []

-- Level 2's last block up to the end of @main's first part, followed by t.
abbrev seg2Eh (t : List (HloOp τ sig (Elt F))) : List (HloOp τ sig (Elt F)) :=
  wrapOps bcast_S_S60000 100#32 (.of main_c_13) (.of main_c_14) (.of main_v27) (.of main_v31) (.of main_v33) (.of main_v34) (.of main_v32) <|
  pickOps bcast_S60000_S60000x1_0 gather_S100x256_S60000x1_S60000x256_1_0_n_n_0_1_1256 (.of main_v32) (.of main_v34) (.of main_v27) (.of main_v35) (.of main_v36) (.of main_arg6) (.of main_v37) <|
  wrapOps bcast_S_S60000 100#32 (.of main_c_15) (.of main_c_16) (.of main_v29) (.of main_v38) (.of main_v40) (.of main_v41) (.of main_v39) t

abbrev seg2E : List (HloOp τ sig (Elt F)) := seg2Eh opsL2b

-- Level 3 (480000 flat indices): the same five blocks with the divisors 3200 and 16.
abbrev seg3A : List (HloOp τ sig (Elt F)) :=
  nullary main_c_19 (constantI S_ 32 3200#32) ::
    quotOps bcast_S_S480000 (.of main_c_19) main_call8.v0 main_call8.v4 main_call8.c main_call8.c_0 (.of main_arg2) main_call8.v1 main_call8.v2 main_call8.v3 main_call8.v5 main_call8.v7 main_call8.v8 main_call8.v9 main_call8.v12 main_call8.v13 main_call8.call0.v0 main_call8.v6 main_call8.v10 main_call8.v11

abbrev seg3B : List (HloOp τ sig (Elt F)) :=
  nullary main_c_20 (constantI S_ 32 3200#32) ::
    remOps bcast_S_S480000 (.of main_c_20) main_call9.v0 main_call9.c main_call9.c_0 main_call9.call0.v0 main_call9.c_1 main_call9.c_2 main_call9.c_3 main_call9.v1 main_call9.v9 (.of main_arg2) main_call9.v3 main_call9.v4 main_call9.v5 main_call9.v7 main_call9.v13 main_call9.v14 main_call9.v15 main_call9.v6 main_call9.v8 main_call9.v10 main_call9.v11 main_call9.v12

abbrev seg3C : List (HloOp τ sig (Elt F)) :=
  nullary main_c_21 (constantI S_ 32 16#32) ::
    quotOps bcast_S_S480000 (.of main_c_21) main_call10.v0 main_call10.v4 main_call10.c main_call10.c_0 (.of main_v55) main_call10.v1 main_call10.v2 main_call10.v3 main_call10.v5 main_call10.v7 main_call10.v8 main_call10.v9 main_call10.v12 main_call10.v13 main_call10.call0.v0 main_call10.v6 main_call10.v10 main_call10.v11

abbrev seg3D : List (HloOp τ sig (Elt F)) :=
  nullary main_c_22 (constantI S_ 32 16#32) ::
    remOps bcast_S_S480000 (.of main_c_22) main_call11.v0 main_call11.c main_call11.c_0 main_call11.call0.v0 main_call11.c_1 main_call11.c_2 main_call11.c_3 main_call11.v1 main_call11.v9 (.of main_v55) main_call11.v3 main_call11.v4 main_call11.v5 main_call11.v7 main_call11.v13 main_call11.v14 main_call11.v15 main_call11.v6 main_call11.v8 main_call11.v10 main_call11.v11 main_call11.v12

abbrev seg3E : List (HloOp τ sig (Elt F)) :=
  wrapOps bcast_S_S480000 200#32 (.of main_c_23) (.of main_c_24) (.of main_v54) (.of main_v58) (.of main_v60) (.of main_v61) (.of main_v59) <|
  pickOps bcast_S480000_S480000x1_0 gather_S200x256_S480000x1_S480000x256_1_0_n_n_0_1_1256 (.of main_v59) (.of main_v61) (.of main_v54) (.of main_v62) (.of main_v63) (.of main_arg9) (.of main_v64) <|
  wrapOps bcast_S_S480000 200#32 (.of main_c_25) (.of main_c_26) (.of main_v56) (.of main_v65) (.of main_v67) (.of main_v68) (.of main_v66) <|
  pickAddOps bcast_S480000_S480000x1_0 gather_S200x256_S480000x1_S480000x256_1_0_n_n_0_1_1256 (.of main_v66) (.of main_v68) (.of main_v56) (.of main_v69) (.of main_v70) (.of main_arg10) (.of main_v71) (.of main_v64) (.of main_v72) <|
  wrapOps bcast_S_S480000 16#32 (.of main_c_27) (.of main_c_28) (.of main_v57) (.of main_v73) (.of main_v75) (.of main_v76) (.of main_v74) <|
  pickAddOps bcast_S480000_S480000x1_0 gather_S16x256_S480000x1_S480000x256_1_0_n_n_0_1_1256 (.of main_v74) (.of main_v76) (.of main_v57) (.of main_v77) (.of main_v78) (.of main_arg11) (.of main_v79) (.of main_v72) (.of main_v80) []

-- The reference's 357 operations in program order: the three levels, then the concatenation and the normalisation.
abbrev opsL1 : List (HloOp τ sig (Elt F)) := seg1A ++ seg1B ++ seg1C ++ seg1D ++ seg1E

abbrev opsL2a : List (HloOp τ sig (Elt F)) := seg2A ++ seg2B ++ seg2C ++ seg2D ++ seg2Eh []

abbrev opsL3 : List (HloOp τ sig (Elt F)) := seg3A ++ seg3B ++ seg3C ++ seg3D ++ seg3E

-- The three embeddings stacked, the row means, the centred rows.
abbrev opsTailA : List (HloOp τ sig (Elt F)) :=
  [ nary ![main_v26, main_v53, main_v80] main_v81 (fun u => concatenate S548000x256 0 [⟨S8000x256, u 0⟩, ⟨S60000x256, u 1⟩, ⟨S480000x256, u 2⟩] concatenates_S8000x256_S60000x256_S480000x256_S548000x256_d0),
    nullary main_cst (constant S_ .f32 0x00000000#32),
    binary main_v81 main_cst main_v82 ((fun x v => Host.reduceAdd x v reducesTo_S548000x256_S548000_d1 h_S_) : Cts F ⟨S548000x256, .f32⟩ → Cts F ⟨S_, .f32⟩ → Cts F ⟨S548000, .f32⟩),
    unary main_v82 main_v83 (broadcastInDim S548000x1 ![0] bcast_S548000_S548000x1_0 : Cts F ⟨S548000, .f32⟩ → Cts F ⟨S548000x1, .f32⟩),
    nullary main_cst_29 (constant S_ .f32 0x43800000#32),
    unary main_cst_29 main_v84 (broadcastInDim S548000x1 ![] bcast_S_S548000x1 : Cts F ⟨S_, .f32⟩ → Cts F ⟨S548000x1, .f32⟩),
    binary main_v83 main_v84 main_v85 (Host.divf : Cts F ⟨S548000x1, .f32⟩ → Cts F ⟨S548000x1, .f32⟩ → Cts F ⟨S548000x1, .f32⟩),
    unary main_v85 main_v86 (broadcastInDim S548000x256 ![0, 1] bcast_S548000x1_S548000x256_0_1 : Cts F ⟨S548000x1, .f32⟩ → Cts F ⟨S548000x256, .f32⟩),
    binary main_v81 main_v86 main_v87 (subf : Cts F ⟨S548000x256, .f32⟩ → Cts F ⟨S548000x256, .f32⟩ → Cts F ⟨S548000x256, .f32⟩) ]

-- The row variances, the reciprocal square roots, the scale and the shift.
abbrev opsTailB : List (HloOp τ sig (Elt F)) :=
  [ binary main_v87 main_v87 main_v88 (mulf : Cts F ⟨S548000x256, .f32⟩ → Cts F ⟨S548000x256, .f32⟩ → Cts F ⟨S548000x256, .f32⟩),
    nullary main_cst_30 (constant S_ .f32 0x00000000#32),
    binary main_v88 main_cst_30 main_v89 ((fun x v => Host.reduceAdd x v reducesTo_S548000x256_S548000_d1 h_S_) : Cts F ⟨S548000x256, .f32⟩ → Cts F ⟨S_, .f32⟩ → Cts F ⟨S548000, .f32⟩),
    unary main_v89 main_v90 (broadcastInDim S548000x1 ![0] bcast_S548000_S548000x1_0 : Cts F ⟨S548000, .f32⟩ → Cts F ⟨S548000x1, .f32⟩),
    nullary main_cst_31 (constant S_ .f32 0x43800000#32),
    unary main_cst_31 main_v91 (broadcastInDim S548000x1 ![] bcast_S_S548000x1 : Cts F ⟨S_, .f32⟩ → Cts F ⟨S548000x1, .f32⟩),
    binary main_v90 main_v91 main_v92 (Host.divf : Cts F ⟨S548000x1, .f32⟩ → Cts F ⟨S548000x1, .f32⟩ → Cts F ⟨S548000x1, .f32⟩),
    unary main_v85 main_v93 (broadcastInDim S548000x256 ![0, 1] bcast_S548000x1_S548000x256_0_1 : Cts F ⟨S548000x1, .f32⟩ → Cts F ⟨S548000x256, .f32⟩),
    binary main_v81 main_v93 main_v94 (subf : Cts F ⟨S548000x256, .f32⟩ → Cts F ⟨S548000x256, .f32⟩ → Cts F ⟨S548000x256, .f32⟩),
    nullary main_cst_32 (constant S_ .f32 0x3727C5AC#32),
    unary main_cst_32 main_v95 (broadcastInDim S548000x1 ![] bcast_S_S548000x1 : Cts F ⟨S_, .f32⟩ → Cts F ⟨S548000x1, .f32⟩),
    binary main_v92 main_v95 main_v96 (addf : Cts F ⟨S548000x1, .f32⟩ → Cts F ⟨S548000x1, .f32⟩ → Cts F ⟨S548000x1, .f32⟩),
    unary main_v96 main_v97 (Host.rsqrt : Cts F ⟨S548000x1, .f32⟩ → Cts F ⟨S548000x1, .f32⟩),
    unary main_v97 main_v98 (broadcastInDim S548000x256 ![0, 1] bcast_S548000x1_S548000x256_0_1 : Cts F ⟨S548000x1, .f32⟩ → Cts F ⟨S548000x256, .f32⟩),
    binary main_v94 main_v98 main_v99 (mulf : Cts F ⟨S548000x256, .f32⟩ → Cts F ⟨S548000x256, .f32⟩ → Cts F ⟨S548000x256, .f32⟩),
    unary main_arg12 main_v100 (broadcastInDim S1x256 ![1] bcast_S256_S1x256_1 : Cts F ⟨S256, .f32⟩ → Cts F ⟨S1x256, .f32⟩),
    unary main_v100 main_v101 (broadcastInDim S548000x256 ![0, 1] bcast_S1x256_S548000x256_0_1 : Cts F ⟨S1x256, .f32⟩ → Cts F ⟨S548000x256, .f32⟩),
    binary main_v99 main_v101 main_v102 (mulf : Cts F ⟨S548000x256, .f32⟩ → Cts F ⟨S548000x256, .f32⟩ → Cts F ⟨S548000x256, .f32⟩),
    unary main_arg13 main_v103 (broadcastInDim S1x256 ![1] bcast_S256_S1x256_1 : Cts F ⟨S256, .f32⟩ → Cts F ⟨S1x256, .f32⟩),
    unary main_v103 main_v104 (broadcastInDim S548000x256 ![0, 1] bcast_S1x256_S548000x256_0_1 : Cts F ⟨S1x256, .f32⟩ → Cts F ⟨S548000x256, .f32⟩),
    binary main_v102 main_v104 main_v105 (addf : Cts F ⟨S548000x256, .f32⟩ → Cts F ⟨S548000x256, .f32⟩ → Cts F ⟨S548000x256, .f32⟩) ]

abbrev opsL2 : List (HloOp τ sig (Elt F)) := opsL2a ++ opsL2b

abbrev opsTail : List (HloOp τ sig (Elt F)) := opsTailA ++ opsTailB

abbrev ops : List (HloOp τ sig (Elt F)) := opsL1 ++ opsL2 ++ opsL3 ++ opsTail

end Cert.ReferenceIdeal.Hand

end
-- ==== Proof.RefRun.lean ====
import proofs.«426295_j69604239999073_3_alg».proof.Proof.RefOps
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- The fold over two lines run one after the other is the second line's fold over the first's.
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem forall_append {p : HloOp τ sig (Elt F) → Prop} {l₁ l₂ : List (HloOp τ sig (Elt F))}
    (h₁ : l₁.Forall p) (h₂ : l₂.Forall p) : (l₁ ++ l₂).Forall p :=
  List.forall_append.mpr ⟨h₁, h₂⟩

-- The six pieces grouped by printed windows on the left, by levels on the right.
theorem regroup {α : Type _} (a b c d e f : List α) :
    (a ++ b) ++ ((c ++ d ++ e) ++ f) = a ++ (b ++ c) ++ d ++ (e ++ f) := by
  simp only [List.append_assoc]

section
open Idealize.ShloMosaic.Pipeline
-- Each printed window of @main is the line of its own operations: a call is its callee's operations over the call's buffers.
theorem main_part0_eq (c : Dev nD) : main_part0 (F := F) c = seq (opsL1 ++ opsL2a) := by chain_rfl
theorem main_part1_eq (c : Dev nD) : main_part1 (F := F) c = seq (opsL2b ++ opsL3 ++ opsTailA) := by chain_rfl
theorem main_part2_eq (c : Dev nD) : main_part2 (F := F) c = seq opsTailB := by chain_rfl
end

theorem main_eq (c : Dev nD) : main (F := F) c = seq ops := by
  show (main_part0 (F := F) c >>= fun _ => main_part1 (F := F) c >>= fun _ => main_part2 (F := F) c) = seq ops
  rw [main_part0_eq, main_part1_eq, main_part2_eq, ← seq_append, ← seq_append]
  exact congrArg seq (regroup opsL1 opsL2a opsL2b opsL3 opsTailA opsTailB)

macro "each_op" : tactic => `(tactic| repeat' apply And.intro)

-- What the run and the frame ask of an operation: its buffers are device references, it determines what it writes, and it writes one buffer, none of the first fourteen.
abbrev Good (op : HloOp τ sig (Elt F)) : Prop :=
  op.bufs ⊆ tcRefs τ sig ∧ op.fresh = ∅ ∧ ∃ y : Ref sig .tc, op.writes = {Proc.devRef .tc y} ∧ 14 ≤ y.idx.val

macro "good_ops" : tactic => `(tactic| each_op <;> first
  | exact rfl
  | exact ⟨_, rfl, by decide⟩
  | simp only [List.Forall, nullary_bufs_sub, unary_bufs_sub, binary_bufs_sub, ternary_bufs_sub, nary_bufs_sub])

theorem opsL1_good : (opsL1 : List (HloOp τ sig (Elt F))).Forall Good := by good_ops
theorem opsL2a_good : (opsL2a : List (HloOp τ sig (Elt F))).Forall Good := by good_ops
theorem opsL2b_good : (opsL2b : List (HloOp τ sig (Elt F))).Forall Good := by good_ops
theorem opsL3_good : (opsL3 : List (HloOp τ sig (Elt F))).Forall Good := by good_ops
theorem opsTailA_good : (opsTailA : List (HloOp τ sig (Elt F))).Forall Good := by good_ops
theorem opsTailB_good : (opsTailB : List (HloOp τ sig (Elt F))).Forall Good := by good_ops

theorem ops_good : (ops : List (HloOp τ sig (Elt F))).Forall Good :=
  forall_append (forall_append (forall_append opsL1_good (forall_append opsL2a_good opsL2b_good)) opsL3_good)
    (forall_append opsTailA_good opsTailB_good)

-- @main ends with each buffer at the fold of the operations' results over its launch contents.
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => ops_good.imp fun _ h => h.1) m ρ
    (fun _ => List.forall_iff_forall_mem.mp (ops_good.imp fun _ h => h.2.1))

theorem opsL1_late : (opsL1 : List (HloOp τ sig (Elt F))).Forall fun op =>
    ∃ y : Ref sig .tc, op.writes = {Proc.devRef .tc y} ∧ 14 ≤ y.idx.val := opsL1_good.imp fun _ h => h.2.2
theorem opsL2a_late : (opsL2a : List (HloOp τ sig (Elt F))).Forall fun op =>
    ∃ y : Ref sig .tc, op.writes = {Proc.devRef .tc y} ∧ 14 ≤ y.idx.val := opsL2a_good.imp fun _ h => h.2.2
theorem opsL2b_late : (opsL2b : List (HloOp τ sig (Elt F))).Forall fun op =>
    ∃ y : Ref sig .tc, op.writes = {Proc.devRef .tc y} ∧ 14 ≤ y.idx.val := opsL2b_good.imp fun _ h => h.2.2
theorem opsL3_late : (opsL3 : List (HloOp τ sig (Elt F))).Forall fun op =>
    ∃ y : Ref sig .tc, op.writes = {Proc.devRef .tc y} ∧ 14 ≤ y.idx.val := opsL3_good.imp fun _ h => h.2.2

theorem not_mem_writes_of_late {r : Ref sig .tc} (hr : r.idx.val < 14) {op : HloOp τ sig (Elt F)}
    (h : ∃ y : Ref sig .tc, op.writes = {Proc.devRef .tc y} ∧ 14 ≤ y.idx.val) :
    Proc.devRef .tc r ∉ op.writes := by
  obtain ⟨y, hw, hy⟩ := h
  rw [hw, Finset.mem_singleton]
  intro e
  have e' : r = y := Proc.devRef_injective _ e
  subst e'
  omega

-- A buffer among the first fourteen, the arguments', is written by no operation.
theorem kept_of_lt {r : Ref sig .tc} (hr : r.idx.val < 14) (V : Valuation τ sig (Elt F)) :
    after (ops (F := F)) V (Proc.devRef .tc r) = V (Proc.devRef .tc r) :=
  after_of_forall_not_mem ops V fun op hop =>
    not_mem_writes_of_late hr (List.forall_iff_forall_mem.mp ops_good op hop).2.2

end Cert.ReferenceIdeal.Hand

end
-- ==== Proof.KI.Cover.lean ====
import proofs.«426295_j69604239999073_3_alg».proof.Proof.KI.Entry
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

theorem gridN : cfg0.N = 268 := N_0

theorem idx_facts : ∀ t : Fin cfg0.N,
    win0_0.index t (0 : Fin 1) = t.val ∧ win0_1.index t (0 : Fin 1) = t.val ∧ win0_2.index t (0 : Fin 1) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_7.xsize (grid0.coords t) (0 : Fin 2) = (if t.val = 267 then 1184 else 2048)
    ∧ win0_7.xsize (grid0.coords t) (1 : Fin 2) = 256 :=
  (by decide +kernel : ∀ t : Fin grid0.N, _)

theorem blk_row {i t p : Nat} (e : i = t) : i * 2048 + 1 * p = 2048 * t + p := by omega

theorem rows_inside (t : Fin cfg0.N) (p : Nat) (hp : p < win0_7.xsize (grid0.coords t) (0 : Fin 2)) :
    p < 2048 ∧ 2048 * t.val + p < 548000 := by
  obtain ⟨-, -, -, -, -, -, -, -, -, -, -, -, -, e, -⟩ := idx_facts t
  have ht : t.val < 268 := gridN ▸ t.isLt
  rw [e] at hp
  split at hp <;> omega

theorem feats_inside (t : Fin cfg0.N) (q : Nat) (hq : q < win0_7.xsize (grid0.coords t) (1 : Fin 2)) : q < 256 := by
  obtain ⟨-, -, -, -, -, -, -, -, -, -, -, -, -, -, e⟩ := idx_facts t
  rw [e] at hq
  exact hq

theorem mem_blk7 (t : Fin cfg0.N) (i : S548000x256.Idx) :
    i ∈ ((cfg0.win 7).blk t).view.set ↔ ∀ a : Fin 2, win0_7.index t a * S2048x256.size a ≤ (i a).val ∧ (i a).val < win0_7.index t a * S2048x256.size a + win0_7.xsize (grid0.coords t) a := by
  show i ∈ ((View.whole main_v67).slice (win0_7.rect t)).set ↔ _
  rw [View.set_slice_whole, Rect.mem_set_unit]
  exact Iff.rfl

theorem in_rows {n b s : Nat} (hn : n < 548000) (e : b = n / 2048) (x : s = if n / 2048 = 267 then 1184 else 2048) :
    b * 2048 ≤ n ∧ n < b * 2048 + s := by
  subst e x; split <;> omega

theorem in_feats {n b s : Nat} (hn : n < 256) (e : b = 0) (x : s = 256) : b * 256 ≤ n ∧ n < b * 256 + s := by omega

theorem cover7 (i : S548000x256.Idx) :
    ∃ t : Fin cfg0.N, (cfg0.win 7).flush t = true ∧ i ∈ ((cfg0.win 7).blk t).view.set := by
  have hi0 : (i 0).val < 548000 := (i 0).isLt
  have hi1 : (i 1).val < 256 := (i 1).isLt
  have ht : (i 0).val / 2048 < cfg0.N := by rw [gridN]; omega
  refine ⟨⟨(i 0).val / 2048, ht⟩, flush0_7 _, ?_⟩
  rw [mem_blk7]
  obtain ⟨-, -, -, -, -, -, -, -, -, -, -, e0, e1, x0, x1⟩ := idx_facts ⟨(i 0).val / 2048, ht⟩
  intro a
  match a with
  | ⟨0, _⟩ => exact in_rows hi0 e0 x0
  | ⟨1, _⟩ => exact in_feats hi1 e1 x1

theorem xinj7 (t : Fin cfg0.N) (j : (win0_7.xblock (grid0.coords t)).Idx) (hp : (j 0).val < 2048) (hf : (j 1).val < 256) :
    win0_7.xinj (grid0.coords t) j = (ix2 ⟨(j 0).val, hp⟩ ⟨(j 1).val, hf⟩ : S2048x256.Idx) := by
  funext a
  match a with
  | ⟨0, _⟩ => rfl
  | ⟨1, _⟩ => rfl

theorem emb7 (t : Fin cfg0.N) (j : (win0_7.xblock (grid0.coords t)).Idx) (hn : 2048 * t.val + (j 0).val < 548000) (hf : (j 1).val < 256) :
    ((cfg0.win 7).blk t).view.emb j = (ix2 ⟨2048 * t.val + (j 0).val, hn⟩ ⟨(j 1).val, hf⟩ : S548000x256.Idx) := by
  obtain ⟨-, -, -, -, -, -, -, -, -, -, -, e0, e1, -, -⟩ := idx_facts t
  funext a; apply Fin.ext
  match a with
  | ⟨0, _⟩ => exact blk_row e0
  | ⟨1, _⟩ => exact win0_7.rect_emb_val_of_index_zero t 1 e1 j

abbrev rowBlk (c : Dev nD) (t : Fin cfg0.N) : Vec F S2048 .i32 := iblk m c 0 t
abbrev colBlk (c : Dev nD) (t : Fin cfg0.N) : Vec F S2048 .i32 := iblk m c 1 t
abbrev zeeBlk (c : Dev nD) (t : Fin cfg0.N) : Vec F S2048 .i32 := iblk m c 2 t
abbrev hiBlk (c : Dev nD) (t : Fin cfg0.N) : Vec F S728x256 .bf16 := iblk m c 3 t
abbrev loBlk (c : Dev nD) (t : Fin cfg0.N) : Vec F S728x256 .bf16 := iblk m c 4 t
abbrev gammaBlk (c : Dev nD) (t : Fin cfg0.N) : Vec F S1x256 .f32 := iblk m c 5 t
abbrev betaBlk (c : Dev nD) (t : Fin cfg0.N) : Vec F S1x256 .f32 := iblk m c 6 t

theorem rowBlk_apply (c : Dev nD) (t : Fin cfg0.N) (p : Fin 2048) (hn : 2048 * t.val + p.val < 548864) :
    rowBlk m c t (ix1 p) = (V m c main_v60 : S548864.Idx → Elt F .i32) (ix1 ⟨2048 * t.val + p.val, hn⟩) := by
  obtain ⟨e, -⟩ := idx_facts t
  refine congrArg (V m c main_v60) (funext fun a => Fin.ext ?_)
  match a with
  | ⟨0, _⟩ => exact blk_row e

theorem colBlk_apply (c : Dev nD) (t : Fin cfg0.N) (p : Fin 2048) (hn : 2048 * t.val + p.val < 548864) :
    colBlk m c t (ix1 p) = (V m c main_v61 : S548864.Idx → Elt F .i32) (ix1 ⟨2048 * t.val + p.val, hn⟩) := by
  obtain ⟨-, e, -⟩ := idx_facts t
  refine congrArg (V m c main_v61) (funext fun a => Fin.ext ?_)
  match a with
  | ⟨0, _⟩ => exact blk_row e

theorem zeeBlk_apply (c : Dev nD) (t : Fin cfg0.N) (p : Fin 2048) (hn : 2048 * t.val + p.val < 548864) :
    zeeBlk m c t (ix1 p) = (V m c main_v62 : S548864.Idx → Elt F .i32) (ix1 ⟨2048 * t.val + p.val, hn⟩) := by
  obtain ⟨-, -, e, -⟩ := idx_facts t
  refine congrArg (V m c main_v62) (funext fun a => Fin.ext ?_)
  match a with
  | ⟨0, _⟩ => exact blk_row e

theorem hiBlk_apply (c : Dev nD) (t : Fin cfg0.N) (r : Fin 728) (f : Fin 256) :
    hiBlk m c t (ix2 r f) = (V m c main_v63 : S728x256.Idx → Elt F .bf16) (ix2 r f) := by
  obtain ⟨-, -, -, e0, e1, -⟩ := idx_facts t
  refine congrArg (V m c main_v63) (funext fun a => Fin.ext ?_)
  match a with
  | ⟨0, _⟩ => exact win0_3.rect_emb_val_of_index_zero t 0 e0 _
  | ⟨1, _⟩ => exact win0_3.rect_emb_val_of_index_zero t 1 e1 _

theorem loBlk_apply (c : Dev nD) (t : Fin cfg0.N) (r : Fin 728) (f : Fin 256) :
    loBlk m c t (ix2 r f) = (V m c main_v66 : S728x256.Idx → Elt F .bf16) (ix2 r f) := by
  obtain ⟨-, -, -, -, -, e0, e1, -⟩ := idx_facts t
  refine congrArg (V m c main_v66) (funext fun a => Fin.ext ?_)
  match a with
  | ⟨0, _⟩ => exact win0_4.rect_emb_val_of_index_zero t 0 e0 _
  | ⟨1, _⟩ => exact win0_4.rect_emb_val_of_index_zero t 1 e1 _

theorem gammaBlk_apply (c : Dev nD) (t : Fin cfg0.N) (f : Fin 256) :
    gammaBlk m c t (ix2 (0 : Fin 1) f) = (V m c main_v58 : S1x256.Idx → Elt F .f32) (ix2 (0 : Fin 1) f) := by
  obtain ⟨-, -, -, -, -, -, -, e0, e1, -⟩ := idx_facts t
  refine congrArg (V m c main_v58) (funext fun a => Fin.ext ?_)
  match a with
  | ⟨0, _⟩ => exact win0_5.rect_emb_val_of_index_zero t 0 e0 _
  | ⟨1, _⟩ => exact win0_5.rect_emb_val_of_index_zero t 1 e1 _

theorem betaBlk_apply (c : Dev nD) (t : Fin cfg0.N) (f : Fin 256) :
    betaBlk m c t (ix2 (0 : Fin 1) f) = (V m c main_v59 : S1x256.Idx → Elt F .f32) (ix2 (0 : Fin 1) f) := by
  obtain ⟨-, -, -, -, -, -, -, -, -, e0, e1, -⟩ := idx_facts t
  refine congrArg (V m c main_v59) (funext fun a => Fin.ext ?_)
  match a with
  | ⟨0, _⟩ => exact win0_6.rect_emb_val_of_index_zero t 0 e0 _
  | ⟨1, _⟩ => exact win0_6.rect_emb_val_of_index_zero t 1 e1 _

end Cert.KernelIdeal.Hand

end
-- ==== Proof.Spec.lean ====
import Idealize.ShloMosaic.PureOps.Ideal
import Idealize.ShloMosaic.Lib.ValueIdx

noncomputable section

namespace Cert.Spec

open Idealize.ShloMosaic

abbrev c256 : EReal := Ideal.ofBits .f32 0x43800000#32

abbrev eps : EReal := Ideal.ofBits .f32 0x3727C5AC#32

def mean (x : Fin 256 → EReal) : EReal := Ideal.div (∑ j, x j) c256

def var (x : Fin 256 → EReal) : EReal := Ideal.div (∑ j, (x j - mean x) * (x j - mean x)) c256

def rowNorm (x γ β : Fin 256 → EReal) (f : Fin 256) : EReal :=
  (x f - mean x) * Ideal.rsqrt (var x + eps) * γ f + β f

def tbl {a b : ℕ} (A : (⟨2, ![a, b]⟩ : Shape).Idx → EReal) (r f : ℕ) : EReal :=
  if h : r < a ∧ f < b then A (ValueIdx.ix2 ⟨r, h.1⟩ ⟨f, h.2⟩) else 0

def idxAt {n : ℕ} (I : (⟨1, ![n]⟩ : Shape).Idx → BitVec 32) (p : ℕ) : ℕ :=
  if h : p < n then (I (ValueIdx.ix1 ⟨p, h⟩)).toNat else 0

def vecAt {n : ℕ} (v : (⟨1, ![n]⟩ : Shape).Idx → EReal) (p : ℕ) : EReal :=
  if h : p < n then v (ValueIdx.ix1 ⟨p, h⟩) else 0

def emb (w z : ℕ) (R C Z : ℕ → ℕ → EReal) (i f : ℕ) : EReal :=
  R (i / (w * z)) f + C (i % (w * z) / z) f + Z (i % z) f

def pos (I1 I2 I3 : ℕ → ℕ) (R1 C1 Z1 R2 C2 Z2 R3 C3 Z3 : ℕ → ℕ → EReal) (n f : ℕ) : EReal :=
  if n < 8000 then emb 50 4 R1 C1 Z1 (I1 n) f
  else if n < 68000 then emb 100 8 R2 C2 Z2 (I2 (n - 8000)) f
  else emb 200 16 R3 C3 Z3 (I3 (n - 68000)) f

def out (I1 I2 I3 : ℕ → ℕ) (R1 C1 Z1 R2 C2 Z2 R3 C3 Z3 : ℕ → ℕ → EReal) (γ β : ℕ → EReal) (n : ℕ) (f : Fin 256) : EReal :=
  rowNorm (fun j => pos I1 I2 I3 R1 C1 Z1 R2 C2 Z2 R3 C3 Z3 n j.val) (fun j => γ j.val) (fun j => β j.val) f

def tab728 (R1 C1 Z1 R2 C2 Z2 R3 C3 Z3 : ℕ → ℕ → EReal) (r f : ℕ) : EReal :=
  if r < 50 then R1 r f else if r < 100 then C1 (r - 50) f else if r < 104 then Z1 (r - 100) f
  else if r < 204 then R2 (r - 104) f else if r < 304 then C2 (r - 204) f else if r < 312 then Z2 (r - 304) f
  else if r < 512 then R3 (r - 312) f else if r < 712 then C3 (r - 512) f else Z3 (r - 712) f

def gRow (I1 I2 I3 : ℕ → ℕ) (n : ℕ) : ℕ :=
  if n < 8000 then I1 n / 200 else if n < 68000 then 104 + I2 (n - 8000) / 800 else 312 + I3 (n - 68000) / 3200

def gCol (I1 I2 I3 : ℕ → ℕ) (n : ℕ) : ℕ :=
  if n < 8000 then 50 + I1 n % 200 / 4 else if n < 68000 then 204 + I2 (n - 8000) % 800 / 8 else 512 + I3 (n - 68000) % 3200 / 16

def gZee (I1 I2 I3 : ℕ → ℕ) (n : ℕ) : ℕ :=
  if n < 8000 then 100 + I1 n % 4 else if n < 68000 then 304 + I2 (n - 8000) % 8 else 712 + I3 (n - 68000) % 16

end Cert.Spec

end
-- ==== Proof.KI.PosTab.lean ====
import proofs.«426295_j69604239999073_3_alg».proof.Proof.Spec

noncomputable section

namespace Cert.KernelIdeal.Hand

variable (R1 C1 Z1 R2 C2 Z2 R3 C3 Z3 : ℕ → ℕ → EReal)

variable (I1 I2 I3 : ℕ → ℕ)

theorem g_eq1 (n : ℕ) (h : n < 8000) :
    Cert.Spec.gRow I1 I2 I3 n = I1 n / 200 ∧ Cert.Spec.gCol I1 I2 I3 n = 50 + I1 n % 200 / 4
      ∧ Cert.Spec.gZee I1 I2 I3 n = 100 + I1 n % 4 := by
  unfold Cert.Spec.gRow Cert.Spec.gCol Cert.Spec.gZee
  simp only [if_pos h, and_self]

theorem g_eq2 (n : ℕ) (h : 8000 ≤ n) (h' : n < 68000) :
    Cert.Spec.gRow I1 I2 I3 n = 104 + I2 (n - 8000) / 800 ∧ Cert.Spec.gCol I1 I2 I3 n = 204 + I2 (n - 8000) % 800 / 8
      ∧ Cert.Spec.gZee I1 I2 I3 n = 304 + I2 (n - 8000) % 8 := by
  unfold Cert.Spec.gRow Cert.Spec.gCol Cert.Spec.gZee
  have h0 : ¬ n < 8000 := by omega
  simp only [if_neg h0, if_pos h', and_self]

theorem g_eq3 (n : ℕ) (h : 68000 ≤ n) :
    Cert.Spec.gRow I1 I2 I3 n = 312 + I3 (n - 68000) / 3200 ∧ Cert.Spec.gCol I1 I2 I3 n = 512 + I3 (n - 68000) % 3200 / 16
      ∧ Cert.Spec.gZee I1 I2 I3 n = 712 + I3 (n - 68000) % 16 := by
  unfold Cert.Spec.gRow Cert.Spec.gCol Cert.Spec.gZee
  have h0 : ¬ n < 8000 := by omega
  have h1 : ¬ n < 68000 := by omega
  simp only [if_neg h0, if_neg h1, and_self]

theorem g_lvl1 (hI1 : ∀ p, I1 p < 10000) (n : ℕ) (h : n < 8000) :
    Cert.Spec.gRow I1 I2 I3 n < 50 ∧ 50 ≤ Cert.Spec.gCol I1 I2 I3 n ∧ Cert.Spec.gCol I1 I2 I3 n < 100
      ∧ 100 ≤ Cert.Spec.gZee I1 I2 I3 n ∧ Cert.Spec.gZee I1 I2 I3 n < 104 := by
  obtain ⟨e1, e2, e3⟩ := g_eq1 I1 I2 I3 n h
  have := hI1 n
  rw [e1, e2, e3]
  omega

theorem g_lvl2 (hI2 : ∀ p, I2 p < 80000) (n : ℕ) (h : 8000 ≤ n) (h' : n < 68000) :
    104 ≤ Cert.Spec.gRow I1 I2 I3 n ∧ Cert.Spec.gRow I1 I2 I3 n < 204 ∧ 204 ≤ Cert.Spec.gCol I1 I2 I3 n
      ∧ Cert.Spec.gCol I1 I2 I3 n < 304 ∧ 304 ≤ Cert.Spec.gZee I1 I2 I3 n ∧ Cert.Spec.gZee I1 I2 I3 n < 312 := by
  obtain ⟨e1, e2, e3⟩ := g_eq2 I1 I2 I3 n h h'
  have := hI2 (n - 8000)
  rw [e1, e2, e3]
  omega

theorem g_lvl3 (hI3 : ∀ p, I3 p < 640000) (n : ℕ) (h : 68000 ≤ n) :
    312 ≤ Cert.Spec.gRow I1 I2 I3 n ∧ Cert.Spec.gRow I1 I2 I3 n < 512 ∧ 512 ≤ Cert.Spec.gCol I1 I2 I3 n
      ∧ Cert.Spec.gCol I1 I2 I3 n < 712 ∧ 712 ≤ Cert.Spec.gZee I1 I2 I3 n ∧ Cert.Spec.gZee I1 I2 I3 n < 728 := by
  obtain ⟨e1, e2, e3⟩ := g_eq3 I1 I2 I3 n h
  have := hI3 (n - 68000)
  rw [e1, e2, e3]
  omega

theorem g_all (hI1 : ∀ p, I1 p < 10000) (hI2 : ∀ p, I2 p < 80000) (hI3 : ∀ p, I3 p < 640000) (n : ℕ) :
    Cert.Spec.gRow I1 I2 I3 n < Cert.Spec.gCol I1 I2 I3 n ∧ Cert.Spec.gCol I1 I2 I3 n < Cert.Spec.gZee I1 I2 I3 n
      ∧ Cert.Spec.gZee I1 I2 I3 n < 728 := by
  by_cases h1 : n < 8000
  · have := g_lvl1 I1 I2 I3 hI1 n h1; omega
  · by_cases h2 : n < 68000
    · have := g_lvl2 I1 I2 I3 hI2 n (by omega) h2; omega
    · have := g_lvl3 I1 I2 I3 hI3 n (by omega); omega

theorem pos_eq_tab (I1 I2 I3 : ℕ → ℕ) (R1 C1 Z1 R2 C2 Z2 R3 C3 Z3 : ℕ → ℕ → EReal) (hI1 : ∀ p, I1 p < 10000)
    (hI2 : ∀ p, I2 p < 80000) (hI3 : ∀ p, I3 p < 640000) (n f : ℕ) :
    Cert.Spec.pos I1 I2 I3 R1 C1 Z1 R2 C2 Z2 R3 C3 Z3 n f
      = Cert.Spec.tab728 R1 C1 Z1 R2 C2 Z2 R3 C3 Z3 (Cert.Spec.gRow I1 I2 I3 n) f
        + Cert.Spec.tab728 R1 C1 Z1 R2 C2 Z2 R3 C3 Z3 (Cert.Spec.gCol I1 I2 I3 n) f
        + Cert.Spec.tab728 R1 C1 Z1 R2 C2 Z2 R3 C3 Z3 (Cert.Spec.gZee I1 I2 I3 n) f := by
  have a1 := hI1 n
  have a2 := hI2 (n - 8000)
  have a3 := hI3 (n - 68000)
  unfold Cert.Spec.pos Cert.Spec.gRow Cert.Spec.gCol Cert.Spec.gZee Cert.Spec.tab728
  by_cases h1 : n < 8000
  · simp (disch := omega) only [if_pos, if_neg, Nat.add_sub_cancel_left]
    rfl
  · by_cases h2 : n < 68000
    · simp (disch := omega) only [if_pos, if_neg, Nat.add_sub_cancel_left]
      rfl
    · simp (disch := omega) only [if_pos, if_neg, Nat.add_sub_cancel_left]
      rfl

end Cert.KernelIdeal.Hand

end
-- ==== Proof.KI.Target.lean ====
import proofs.«426295_j69604239999073_3_alg».proof.Proof.Gen.KernelIdeal
import proofs.«426295_j69604239999073_3_alg».proof.Proof.Spec
import proofs.«426295_j69604239999073_3_alg».proof.Proof.KI.PosTab
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

abbrev aI1 (c : Dev nD) := Cert.Spec.idxAt (m ((c.tc : Thread nD τ).loc main_arg0) : S8000.Idx → BitVec 32)
abbrev aI2 (c : Dev nD) := Cert.Spec.idxAt (m ((c.tc : Thread nD τ).loc main_arg1) : S60000.Idx → BitVec 32)
abbrev aI3 (c : Dev nD) := Cert.Spec.idxAt (m ((c.tc : Thread nD τ).loc main_arg2) : S480000.Idx → BitVec 32)

abbrev aR1 (c : Dev nD) := Cert.Spec.tbl (m ((c.tc : Thread nD τ).loc main_arg3) : S50x256.Idx → EReal)
abbrev aC1 (c : Dev nD) := Cert.Spec.tbl (m ((c.tc : Thread nD τ).loc main_arg4) : S50x256.Idx → EReal)
abbrev aZ1 (c : Dev nD) := Cert.Spec.tbl (m ((c.tc : Thread nD τ).loc main_arg5) : S4x256.Idx → EReal)
abbrev aR2 (c : Dev nD) := Cert.Spec.tbl (m ((c.tc : Thread nD τ).loc main_arg6) : S100x256.Idx → EReal)
abbrev aC2 (c : Dev nD) := Cert.Spec.tbl (m ((c.tc : Thread nD τ).loc main_arg7) : S100x256.Idx → EReal)
abbrev aZ2 (c : Dev nD) := Cert.Spec.tbl (m ((c.tc : Thread nD τ).loc main_arg8) : S8x256.Idx → EReal)
abbrev aR3 (c : Dev nD) := Cert.Spec.tbl (m ((c.tc : Thread nD τ).loc main_arg9) : S200x256.Idx → EReal)
abbrev aC3 (c : Dev nD) := Cert.Spec.tbl (m ((c.tc : Thread nD τ).loc main_arg10) : S200x256.Idx → EReal)
abbrev aZ3 (c : Dev nD) := Cert.Spec.tbl (m ((c.tc : Thread nD τ).loc main_arg11) : S16x256.Idx → EReal)

abbrev aG (c : Dev nD) := Cert.Spec.vecAt (m ((c.tc : Thread nD τ).loc main_arg12) : S256.Idx → EReal)
abbrev aB (c : Dev nD) := Cert.Spec.vecAt (m ((c.tc : Thread nD τ).loc main_arg13) : S256.Idx → EReal)

abbrev aTab (c : Dev nD) :=
  Cert.Spec.tab728 (aR1 m c) (aC1 m c) (aZ1 m c) (aR2 m c) (aC2 m c) (aZ2 m c) (aR3 m c) (aC3 m c) (aZ3 m c)

abbrev gR (c : Dev nD) := Cert.Spec.gRow (aI1 m c) (aI2 m c) (aI3 m c)
abbrev gC (c : Dev nD) := Cert.Spec.gCol (aI1 m c) (aI2 m c) (aI3 m c)
abbrev gZ (c : Dev nD) := Cert.Spec.gZee (aI1 m c) (aI2 m c) (aI3 m c)

def Gout (c : Dev nD) : S548000x256.Idx → EReal := fun i =>
  Cert.Spec.out (aI1 m c) (aI2 m c) (aI3 m c) (aR1 m c) (aC1 m c) (aZ1 m c) (aR2 m c) (aC2 m c) (aZ2 m c)
    (aR3 m c) (aC3 m c) (aZ3 m c) (aG m c) (aB m c) (i 0).val ⟨(i 1).val, idx2_lt1 i⟩

theorem idxAt_lt {n B : ℕ} (I : (⟨1, ![n]⟩ : Shape).Idx → BitVec 32) (hB : 0 < B) (h : ∀ j, (I j).toNat < B) (p : ℕ) :
    Cert.Spec.idxAt I p < B := by
  unfold Cert.Spec.idxAt
  split
  · exact h _
  · exact hB

theorem vecAt_apply (x : S256.Idx → EReal) (j : Fin 256) : Cert.Spec.vecAt x j.val = x (ix1 j) := by
  unfold Cert.Spec.vecAt
  rw [dif_pos j.isLt]

variable (h1 : ∀ (c : Dev nD) j, (m ((c.tc : Thread nD τ).loc main_arg0) j).toNat < 10000)
  (h2 : ∀ (c : Dev nD) j, (m ((c.tc : Thread nD τ).loc main_arg1) j).toNat < 80000)
  (h3 : ∀ (c : Dev nD) j, (m ((c.tc : Thread nD τ).loc main_arg2) j).toNat < 640000)
include h1 h2 h3

-- A row that is the sum of the three table rows the decoded numbers name, normalised, is the specified output row.
theorem row_eq
    (c : Dev nD) (n : ℕ) (hn : n < 548000) (f : Fin 256) (X γ β : Fin 256 → EReal)
    (hX : ∀ j : Fin 256, X j = aTab m c (gR m c n) j.val + aTab m c (gC m c n) j.val + aTab m c (gZ m c n) j.val)
    (hγ : ∀ j : Fin 256, γ j = aG m c j.val) (hβ : ∀ j : Fin 256, β j = aB m c j.val) :
    Cert.Spec.rowNorm X γ β f = Gout m c (ix2 ⟨n, hn⟩ f) := by
  have eX : X = fun j : Fin 256 => Cert.Spec.pos (aI1 m c) (aI2 m c) (aI3 m c) (aR1 m c) (aC1 m c) (aZ1 m c) (aR2 m c) (aC2 m c)
      (aZ2 m c) (aR3 m c) (aC3 m c) (aZ3 m c) n j.val :=
    funext fun j => (hX j).trans (pos_eq_tab _ _ _ _ _ _ _ _ _ _ _ _ (idxAt_lt _ (by omega) (h1 c)) (idxAt_lt _ (by omega) (h2 c))
      (idxAt_lt _ (by omega) (h3 c)) n j.val).symm
  rw [eX, funext hγ, funext hβ]
  rfl

end Cert.KernelIdeal.Hand

end
-- ==== Proof.LibColumnCast.lean ====
import Idealize.ShloMosaic.Lib.Pipeline.Value
import Idealize.ShloMosaic.Lib.ValueIdx

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibBroadcastColumn.lean ====
import Idealize.ShloMosaic.Lib.Pipeline.Value
import Idealize.ShloMosaic.Lib.ValueIdx

namespace Idealize.ShloMosaic.ValueIdx

variable {α : Type}

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.Payload.lean ====
import proofs.«426295_j69604239999073_3_alg».proof.Proof.Gen.KernelIdeal.Skeleton
import proofs.«426295_j69604239999073_3_alg».proof.Proof.Spec
import proofs.«426295_j69604239999073_3_alg».proof.Proof.LibColumnCast
import proofs.«426295_j69604239999073_3_alg».proof.Proof.LibBroadcastColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic ValueIdx
open scoped BigOperators

theorem rowSum_apply (Y : FVec Ideal S2048x256 .f32) (p : Fin 2048) :
    multiReduction (F := Ideal) .add [1] S2048 Y 0x00000000#32 reduces_S2048x256_S2048 (.inl rfl) rfl (ix1 p)
      = ∑ j : Fin 256, Y (ix2 p j) := by
  refine (Ideal.multiReduction_add_single Y _ reduces_S2048x256_S2048 (.inl rfl) rfl (ix1 p)).trans ?_
  exact Finset.sum_congr rfl fun j _ => congrArg Y ((eq_ix2 _).trans (congrArg₂ ix2 (Fin.ext rfl) (Fin.ext rfl)))

def avg (Z : FVec Ideal S2048x256 .f32) : FVec Ideal S2048x1 .f32 :=
  divf (shapeCast S2048x1 (multiReduction .add [1] S2048 Z 0x00000000#32 reduces_S2048x256_S2048 (.inl rfl) rfl) shapeCasts_S2048_S2048x1)
    (broadcast S2048x1 (Scalar.ofBits .f32 0x43800000#32))

def ctr (Y : FVec Ideal S2048x256 .f32) : FVec Ideal S2048x256 .f32 :=
  subf Y (broadcastTo S2048x256 (avg Y) broadcasts_S2048x1_S2048x256)

def core (Y : FVec Ideal S2048x256 .f32) : FVec Ideal S2048x256 .f32 :=
  mulf (ctr Y) (broadcastTo S2048x256 (rsqrt (addf (avg (mulf (ctr Y) (ctr Y))) (broadcast S2048x1 (Scalar.ofBits .f32 0x3727C5AC#32))))
    broadcasts_S2048x1_S2048x256)

theorem avg_apply (Z : FVec Ideal S2048x256 .f32) (p : Fin 2048) (u : Fin 1) :
    avg Z (ix2 p u) = Cert.Spec.mean fun j => Z (ix2 p j) := by
  unfold avg
  rw [divf_apply, broadcast_apply, shapeCast_a_a1_apply, rowSum_apply]
  rfl

theorem ctr_apply (Y : FVec Ideal S2048x256 .f32) (p : Fin 2048) (f : Fin 256) :
    ctr Y (ix2 p f) = Y (ix2 p f) - Cert.Spec.mean fun j => Y (ix2 p j) := by
  unfold ctr
  rw [subf_apply, broadcastTo_a1_ab_apply, avg_apply]

-- The variance is the mean of the squared centred entries.
theorem core_apply (Y : FVec Ideal S2048x256 .f32) (p : Fin 2048) (f : Fin 256) :
    core Y (ix2 p f)
      = (Y (ix2 p f) - Cert.Spec.mean fun j => Y (ix2 p j))
        * Ideal.rsqrt (Cert.Spec.var (fun j => Y (ix2 p j)) + Cert.Spec.eps) := by
  show ctr Y (ix2 p f) * Ideal.rsqrt (avg (mulf (ctr Y) (ctr Y)) (ix2 p 0) + _) = _
  rw [ctr_apply, avg_apply]
  simp only [mulf_apply, ctr_apply]
  rfl

theorem affine_apply (v6 v8 : Vec Ideal S1x256 .f32) (Z : FVec Ideal S2048x256 .f32) (p : Fin 2048) (f : Fin 256) :
    k0_pay6 (F := Ideal) v6 v8 Z (ix2 p f) = Z (ix2 p f) * v6 (ix2 0 f) + v8 (ix2 0 f) := by
  unfold k0_pay6 k0_pay4 k0_pay5
  rw [addf_apply, mulf_apply, broadcastTo_1b_ab_apply, broadcastTo_1b_ab_apply, shapeCast_self, shapeCast_self]

theorem mask_entry (c : Bool) :
    FloatOps.sitofp (F := Ideal) .f32 ((BitVec.ofBool c).setWidth 32) = if c then 1 else 0 := by
  show (((BitVec.setWidth 32 (BitVec.ofBool c)).toInt : ℝ) : EReal) = _
  rw [show (BitVec.setWidth 32 (BitVec.ofBool c)).toInt = if c then 1 else 0 from by revert c; decide]
  cases c <;> simp

section
variable {K : ℕ} (hi : (⟨2, ![2048, K]⟩ : Shape).Iotas .tc 32 [1]) (hb : S2048x1.Broadcasts ⟨2, ![2048, K]⟩)

def hit (w : IVec S2048 32) : IVec ⟨2, ![2048, K]⟩ 1 :=
  cmpi .eq (broadcastTo ⟨2, ![2048, K]⟩ (shapeCast S2048x1 w shapeCasts_S2048_S2048x1) hb) (iota .tc ⟨2, ![2048, K]⟩ 32 [1] hi)

def hot (v35 v37 v39 : IVec S2048 32) : FVec Ideal ⟨2, ![2048, K]⟩ .bf16 :=
  truncf .bf16 (sitofp .f32 (extui 32 (ori (ori (hit hi hb v35) (hit hi hb v37)) (hit hi hb v39)) natLt_1_32)) bitsLt_bf16_f32

-- A row's index word against the column numbers: a one exactly in the column the word names.
theorem hit_apply (hK : K ≤ 2 ^ 32) (w : IVec S2048 32) (p : Fin 2048) (k a : Fin K) (ha : w (ix1 p) = BitVec.ofNat 32 a.val) :
    hit hi hb w (ix2 p k) = BitVec.ofBool (decide (k = a)) := by
  show IntOp.cmpi .eq _ _ = _
  rw [broadcastTo_a1_ab_apply, shapeCast_a_a1_apply, iota_single_apply, ha]
  show BitVec.ofBool (BitVec.ofNat 32 a.val == BitVec.ofNat 32 k.val) = _
  congr 1
  rw [Bool.eq_iff_iff, beq_iff_eq, decide_eq_true_iff, Fin.ext_iff, ← BitVec.toNat_inj, BitVec.toNat_ofNat, BitVec.toNat_ofNat,
    Nat.mod_eq_of_lt (by have := a.isLt; omega), Nat.mod_eq_of_lt (by have := k.isLt; omega)]
  exact eq_comm

end

theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 a b) ((contrEquiv1 _ k rfl rfl).symm c) = ix2 a c :=
    (eq_ix2 _).trans (congrArg₂ ix2 (Fin.ext rfl) (Fin.ext c2))
  have r2 : (DotDims.plain m k n).rhsIdx (ix2 a b) ((contrEquiv1 _ k rfl rfl).symm c) = ix2 c b :=
    (eq_ix2 _).trans (congrArg₂ ix2 (Fin.ext c2) (Fin.ext rfl))
  rw [l2, r2]

theorem pay1_eq (v : Vec Ideal S2048 .i32) : k0_pay1 (F := Ideal) v = v := shapeCast_self _ _

theorem subBase_apply (base a : ℕ) (v : Vec Ideal S2048 .i32) (p : Fin 2048) (ha : v (ix1 p) = BitVec.ofNat 32 (base + a)) :
    subi (k0_pay1 (F := Ideal) v) (broadcast S2048 (BitVec.ofNat 32 base)) (ix1 p) = BitVec.ofNat 32 a := by
  show k0_pay1 (F := Ideal) v (ix1 p) - BitVec.ofNat 32 base = _
  rw [pay1_eq, ha, Nat.add_comm, BitVec.ofNat_add, BitVec.add_sub_cancel]

def gathered {K : ℕ} (O : FVec Ideal ⟨2, ![2048, K]⟩ .bf16) (H L : FVec Ideal ⟨2, ![K, 256]⟩ .bf16) : FVec Ideal S2048x256 .f32 :=
  addf (FloatOps.matmul (DotDims.plain 2048 K 256) none O H (constant (F := Ideal) S2048x256 .f32 0x00000000#32))
    (FloatOps.matmul (DotDims.plain 2048 K 256) none O L (constant (F := Ideal) S2048x256 .f32 0x00000000#32))

section
variable {K : ℕ} (O : FVec Ideal ⟨2, ![2048, K]⟩ .bf16) (p : Fin 2048) (a b d : Fin K) (hab : a ≠ b) (had : a ≠ d) (hbd : b ≠ d)
  (hO : ∀ k : Fin K, O (ix2 p k) = if k = a ∨ k = b ∨ k = d then 1 else 0)
include hab had hbd hO

-- A row with ones in three distinct columns times a table is the sum of the table's three rows.
theorem hot_prod (T : FVec Ideal ⟨2, ![K, 256]⟩ .bf16) (j : Fin 256) :
    FloatOps.matmul (DotDims.plain 2048 K 256) none O T (constant (F := Ideal) S2048x256 .f32 0x00000000#32) (ix2 p j)
      = T (ix2 a j) + T (ix2 b j) + T (ix2 d j) := by
  rw [matmul_plain_apply]
  simp only [hO, ite_mul, one_mul, zero_mul]
  rw [← Finset.sum_filter, show Finset.univ.filter (fun c => c = a ∨ c = b ∨ c = d) = {a, b, d} from by ext c; simp,
    Finset.sum_insert (by simp [hab, had]), Finset.sum_insert (by simp [hbd]), Finset.sum_singleton, add_assoc]
end

section
variable {K : ℕ} (hK : K ≤ 2 ^ 32) (hi : (⟨2, ![2048, K]⟩ : Shape).Iotas .tc 32 [1]) (hb : S2048x1.Broadcasts ⟨2, ![2048, K]⟩)
  (w0 w2 w4 : IVec S2048 32) (p : Fin 2048) (a b d : Fin K) (ha : w0 (ix1 p) = BitVec.ofNat 32 a.val)
  (hb' : w2 (ix1 p) = BitVec.ofNat 32 b.val) (hd : w4 (ix1 p) = BitVec.ofNat 32 d.val)
include hK ha hb' hd

theorem hot_apply (k : Fin K) : hot hi hb w0 w2 w4 (ix2 p k) = if k = a ∨ k = b ∨ k = d then 1 else 0 := by
  show FloatOps.sitofp (F := Ideal) .f32 ((hit hi hb w0 (ix2 p k) ||| hit hi hb w2 (ix2 p k) ||| hit hi hb w4 (ix2 p k)).setWidth 32) = _
  rw [hit_apply hi hb hK w0 p k a ha, hit_apply hi hb hK w2 p k b hb', hit_apply hi hb hK w4 p k d hd,
    BitVec.ofBool_or_ofBool, BitVec.ofBool_or_ofBool, mask_entry]
  simp [or_assoc]

variable (hab : a ≠ b) (had : a ≠ d) (hbd : b ≠ d) (H L : FVec Ideal ⟨2, ![K, 256]⟩ .bf16) (hL : ∀ i, L i = 0)
include hab had hbd hL

theorem gathered_apply (j : Fin 256) :
    gathered (hot hi hb w0 w2 w4) H L (ix2 p j) = H (ix2 a j) + H (ix2 b j) + H (ix2 d j) := by
  have hO := hot_apply hK hi hb w0 w2 w4 p a b d ha hb' hd
  unfold gathered
  rw [addf_apply, hot_prod _ p a b d hab had hbd hO H, hot_prod _ p a b d hab had hbd hO L, hL, hL, hL]
  simp

-- One statement for every table height: three index words name three distinct rows; the second table is zero.
theorem pay_gen (hs : (⟨2, ![K, 256]⟩ : Shape).ShapeCasts ⟨2, ![K, 256]⟩) (v6 v8 : Vec Ideal S1x256 .f32) (f : Fin 256) :
    k0_pay6 (F := Ideal) v6 v8 (core (gathered (hot hi hb w0 w2 w4) (shapeCast _ H hs) (shapeCast _ L hs))) (ix2 p f)
      = Cert.Spec.rowNorm (fun j => H (ix2 a j) + H (ix2 b j) + H (ix2 d j)) (fun j => v6 (ix2 0 j)) (fun j => v8 (ix2 0 j)) f := by
  rw [shapeCast_self, shapeCast_self, affine_apply, core_apply]
  simp only [gathered_apply hK hi hb w0 w2 w4 p a b d ha hb' hd hab had hbd H L hL]
  rfl
end

end Cert.KernelIdeal.Hand

end
-- ==== Proof.LibNaryResult.lean ====
import Idealize.ShloMosaic.Lib.StableHlo.Run

noncomputable section

namespace Idealize.ShloMosaic.StableHlo

variable {nD : Nat} {τ : Topo} {sig : RefSig} {Val : EltTy → Type}
variable {x a b c e g h i j y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl

theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
import Idealize.ShloMosaic.Lib.StableHlo.Run
import proofs.«426295_j69604239999073_3_alg».proof.Proof.LibNaryResult

noncomputable section

namespace Idealize.ShloMosaic.StableHlo

variable {nD : Nat} {τ : Topo} {sig : RefSig} {Val : EltTy → Type}
variable {x a y : Ref sig .tc}

theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in

macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.KI.HostTable.lean ====
import proofs.«426295_j69604239999073_3_alg».proof.Proof.KI.Entry
import proofs.«426295_j69604239999073_3_alg».proof.Proof.Spec
import proofs.«426295_j69604239999073_3_alg».proof.Proof.LibReadStretch
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Cert.Spec (tbl tab728)

variable (W X : Valuation τ sig (Elt Ideal))

-- Consecutive stretches keep every reference that none of them writes.
theorem keep_seg (a n : ℕ) (r : Ref sig .tc) (h : r ∉ ((written.drop a).take n).flatten) :
    after ((stretches.drop a).take n).flatten W (Proc.devRef .tc r) = W (Proc.devRef .tc r) :=
  after_flatten_keep _ _ W (List.forall₂_take n (List.forall₂_drop a stretches_writes)) h

theorem after_all : after stretches.flatten W
    = after ((stretches.drop 37).take 6).flatten (after hostOps0_36 (after ((stretches.drop 0).take 36).flatten W)) := by
  rw [← after_append, ← after_append]
  simp only [stretches, List.drop, List.take, List.flatten_cons, List.flatten_nil, List.append_nil, List.append_assoc]

theorem after_tail : after ((stretches.drop 37).take 6).flatten X = after hostOps0_42 (after ((stretches.drop 37).take 5).flatten X) := by
  rw [← after_append]
  simp only [stretches, List.drop, List.take, List.flatten_cons, List.flatten_nil, List.append_nil, List.append_assoc]

abbrev tab : S728x256.Idx → EReal :=
  concatenate S728x256 0 [⟨S50x256, X main_arg3⟩, ⟨S50x256, X main_arg4⟩, ⟨S4x256, X main_arg5⟩, ⟨S100x256, X main_arg6⟩, ⟨S100x256, X main_arg7⟩, ⟨S8x256, X main_arg8⟩, ⟨S200x256, X main_arg9⟩, ⟨S200x256, X main_arg10⟩, ⟨S16x256, X main_arg11⟩] concatenates_S50x256_S50x256_S4x256_S100x256_S100x256_S8x256_S200x256_S200x256_S16x256_S728x256_d0

theorem stack : after hostOps0_36 X main_v57 = tab X
    ∧ (∀ f : Fin 256, after hostOps0_36 X main_v58 (ix2 0 f) = X main_arg12 (ix1 f))
    ∧ ∀ f : Fin 256, after hostOps0_36 X main_v59 (ix2 0 f) = X main_arg13 (ix1 f) := by
  read_stretch
  exact ⟨rfl, shapeCast_a_1a_apply _ _ 0, shapeCast_a_1a_apply _ _ 0⟩

-- Row r of a stack of two-dimensional pieces is row r - pre of the piece that starts at row pre.
theorem rows_tbl {n c : ℕ} (xs : List ((s : Shape) × (s.Idx → EReal)))
    (h : Shape.Concatenates (xs.map (·.1)) ⟨2, ![n, c]⟩ 0) (r : Fin n) (f : Fin c)
    (k : ℕ) {a pre : ℕ} {x₁ : (⟨2, ![a, c]⟩ : Shape).Idx → EReal} (hk : k < xs.length := by simp) (hxk : xs[k] = ⟨⟨2, ![a, c]⟩, x₁⟩ := by rfl)
    (hpre : (((xs.take k).map (·.1)).map fun s => if h : s.rank = (⟨2, ![n, c]⟩ : Shape).rank then s.size ((0 : Fin (⟨2, ![n, c]⟩ : Shape).rank).cast h.symm) else 0).sum = pre := by rfl)
    (hlo : pre ≤ r.val := by omega) (hhi : r.val < pre + a := by omega) :
    concatenate ⟨2, ![n, c]⟩ 0 xs h (ix2 r f) = tbl x₁ (r.val - pre) f.val := by
  unfold Cert.Spec.tbl; rw [dif_pos ⟨by omega, f.isLt⟩]
  exact concatenate_apply_piece 0 xs h (ix2 r f) k hk ⟨2, ![a, c]⟩ x₁ hxk rfl pre hpre (ix2 ⟨r.val - pre, by omega⟩ f)
    (fun b hb => by
      match b with
      | ⟨0, _⟩ => exact absurd rfl hb
      | ⟨1, _⟩ => rfl)
    (by show pre + (r.val - pre) = r.val; omega)

theorem tab_apply (r : Fin 728) (f : Fin 256) :
    tab X (ix2 r f) = tab728 (tbl (X main_arg3)) (tbl (X main_arg4)) (tbl (X main_arg5)) (tbl (X main_arg6)) (tbl (X main_arg7)) (tbl (X main_arg8))
          (tbl (X main_arg9)) (tbl (X main_arg10)) (tbl (X main_arg11)) r.val f.val := by
  unfold Cert.Spec.tab728
  have hr := r.isLt
  split_ifs
  exacts [rows_tbl _ _ r f 0 (pre := 0), rows_tbl _ _ r f 1, rows_tbl _ _ r f 2, rows_tbl _ _ r f 3, rows_tbl _ _ r f 4,
    rows_tbl _ _ r f 5, rows_tbl _ _ r f 6, rows_tbl _ _ r f 7, rows_tbl _ _ r f 8]

theorem v57_eq : after ((stretches.drop 37).take 5).flatten (after hostOps0_36 (after ((stretches.drop 0).take 36).flatten W)) main_v57 = tab W := by
  have k := keep_seg W 0 36
  rw [keep_seg _ 37 5 main_v57 (by decide), (stack _).1]
  unfold tab
  rw [k main_arg3 (by decide), k main_arg4 (by decide), k main_arg5 (by decide), k main_arg6 (by decide), k main_arg7 (by decide),
    k main_arg8 (by decide), k main_arg9 (by decide), k main_arg10 (by decide), k main_arg11 (by decide)]

theorem split_v63 (j : S728x256.Idx) : after hostOps0_42 X main_v63 j = X main_v57 j := by
  read_stretch
  rfl

theorem split_v66 (j : S728x256.Idx) (x : EReal) (hx : X main_v57 j = x) :
    Eq (α := EReal) (after hostOps0_42 X main_v66 j) (x - x) := by
  subst hx
  read_stretch
  rfl

theorem v63_apply (r : Fin 728) (f : Fin 256) :
    (after stretches.flatten W main_v63) (ix2 r f)
      = tab728 (tbl (W main_arg3)) (tbl (W main_arg4)) (tbl (W main_arg5)) (tbl (W main_arg6)) (tbl (W main_arg7)) (tbl (W main_arg8))
          (tbl (W main_arg9)) (tbl (W main_arg10)) (tbl (W main_arg11)) r.val f.val := by
  rw [after_all, after_tail, split_v63, v57_eq, tab_apply]

theorem tbl_sub_self {a b : ℕ} {A : (⟨2, ![a, b]⟩ : Shape).Idx → EReal} (h : ∀ j, ∃ x : ℝ, A j = (x : EReal)) (r f : ℕ) :
    tbl A r f - tbl A r f = 0 := by
  unfold Cert.Spec.tbl; split_ifs
  · obtain ⟨x, hx⟩ := h _; rw [hx, ← EReal.coe_sub, sub_self, EReal.coe_zero]
  · exact sub_zero 0

theorem v66_apply
    (h3 : ∀ j, ∃ x : ℝ, W main_arg3 j = (x : EReal))
    (h4 : ∀ j, ∃ x : ℝ, W main_arg4 j = (x : EReal))
    (h5 : ∀ j, ∃ x : ℝ, W main_arg5 j = (x : EReal))
    (h6 : ∀ j, ∃ x : ℝ, W main_arg6 j = (x : EReal))
    (h7 : ∀ j, ∃ x : ℝ, W main_arg7 j = (x : EReal))
    (h8 : ∀ j, ∃ x : ℝ, W main_arg8 j = (x : EReal))
    (h9 : ∀ j, ∃ x : ℝ, W main_arg9 j = (x : EReal))
    (h10 : ∀ j, ∃ x : ℝ, W main_arg10 j = (x : EReal))
    (h11 : ∀ j, ∃ x : ℝ, W main_arg11 j = (x : EReal))
    (j : S728x256.Idx) : Eq (α := EReal) ((after stretches.flatten W main_v66) j) 0 := by
  obtain ⟨r, f, rfl⟩ : ∃ (r : Fin 728) (f : Fin 256), j = ix2 r f := ⟨j 0, j 1, eq_ix2 j⟩
  rw [after_all, after_tail, split_v66 _ _ _ (congrFun (v57_eq W) _), tab_apply]
  unfold Cert.Spec.tab728
  split_ifs <;> exact tbl_sub_self ‹_› _ _

theorem v58_apply (f : Fin 256) : (after stretches.flatten W main_v58) (ix2 0 f) = W main_arg12 (ix1 f) := by
  rw [after_all, keep_seg _ 37 6 main_v58 (by decide), (stack _).2.1, keep_seg W 0 36 main_arg12 (by decide)]

theorem v59_apply (f : Fin 256) : (after stretches.flatten W main_v59) (ix2 0 f) = W main_arg13 (ix1 f) := by
  rw [after_all, keep_seg _ 37 6 main_v59 (by decide), (stack _).2.2, keep_seg W 0 36 main_arg13 (by decide)]

end Cert.KernelIdeal.Hand

end
-- ==== Proof.IntDecode.lean ====
import Idealize.ShloMosaic.PureOps
import Idealize.ShloMosaic.Lib.Affine
import Idealize.ShloMosaic.Lib.ValueIdx

namespace Cert.IntDecode

open Idealize.ShloMosaic Idealize.ShloMosaic.ValueIdx

def clipW (lo hi x : BitVec 32) : BitVec 32 := IntOp.minsi hi (IntOp.maxsi lo x)

def sgnW (x : BitVec 32) : BitVec 32 := if x = 0 then 0 else if x.msb then -1 else 1

def fdivW (d x : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

def modW (d x : BitVec 32) : BitVec 32 := IntOp.subi x (IntOp.muli (fdivW d x) d)

def remW (d x : BitVec 32) : BitVec 32 :=
  Scalar.select
    (IntOp.andi
      (IntOp.cmpi .ne (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d))
      (Scalar.select (IntOp.cmpi .eq d 0#32) 1#32 d))
    (IntOp.remsi .host x (Scalar.select (IntOp.cmpi .eq d 0#32) 1#32 d))

def wrapW (e x : BitVec 32) : BitVec 32 := Scalar.select (IntOp.cmpi .slt x 0#32) (IntOp.addi x e) x

variable {x d : BitVec 32}

theorem msb_false (hx : x.toNat < 2 ^ 31) : x.msb = false := BitVec.msb_eq_false_iff_two_mul_lt.mpr (by omega)

theorem toInt_small (hx : x.toNat < 2 ^ 31) : x.toInt = x.toNat := BitVec.toInt_eq_toNat_of_lt (by omega)

theorem ne_zero_of_pos (hd0 : 0 < d.toNat) : d ≠ 0 := by
  rintro rfl; exact absurd hd0 (by decide)

theorem pos_of_ne_zero (h : x ≠ 0) : 0 < x.toNat :=
  Nat.pos_of_ne_zero fun h0 => h (BitVec.eq_of_toNat_eq h0)

theorem not_corner (hd0 : 0 < d.toNat) (hd : d.toNat < 2 ^ 31) : ¬ IntOp.SDivCorner x d :=
  IntOp.not_corner_of_pos (by rw [toInt_small hd]; exact_mod_cast hd0)

theorem divsi_eq (u : ArithUnit) (hx : x.toNat < 2 ^ 31) (hd0 : 0 < d.toNat) (hd : d.toNat < 2 ^ 31) :
    IntOp.divsi u x d = x / d := by
  simp only [IntOp.divsi, if_neg (not_corner hd0 hd), BitVec.sdiv_eq, msb_false hx, msb_false hd, BitVec.udiv_eq]

theorem remsi_eq (u : ArithUnit) (hx : x.toNat < 2 ^ 31) (hd0 : 0 < d.toNat) (hd : d.toNat < 2 ^ 31) :
    IntOp.remsi u x d = x % d := by
  simp only [IntOp.remsi, if_neg (not_corner hd0 hd), BitVec.srem_eq, msb_false hx, msb_false hd, BitVec.umod_eq]

theorem slt_zero (hx : x.toNat < 2 ^ 31) : IntOp.cmpi .slt x 0#32 = 0#1 := by
  apply eq_zero_of_ne_one
  rw [IntOp.cmpi_slt, toInt_small hx, show (0#32 : BitVec 32).toInt = 0 from by decide]
  omega

theorem sgnW_pos (hd0 : 0 < d.toNat) (hd : d.toNat < 2 ^ 31) : sgnW d = 1 := by
  unfold sgnW
  rw [if_neg (ne_zero_of_pos hd0), msb_false hd]
  rfl

theorem fdivW_eq (hx : x.toNat < 2 ^ 31) (hd0 : 0 < d.toNat) (hd : d.toNat < 2 ^ 31) : fdivW d x = x / d := by
  have hr := remsi_eq .host hx hd0 hd
  have hc : IntOp.andi (IntOp.cmpi .ne (sgnW x) (sgnW d)) (IntOp.cmpi .ne (IntOp.remsi .host x d) 0#32) = 0#1 := by
    apply eq_zero_of_ne_one
    rw [IntOp.andi_eq_one, IntOp.cmpi_ne, IntOp.cmpi_ne]
    rintro ⟨h1, h2⟩
    by_cases hx0 : x = 0
    · exact h2 (by rw [hr, hx0]; exact BitVec.eq_of_toNat_eq (Nat.zero_mod _))
    · exact h1 (by rw [sgnW_pos hd0 hd, sgnW_pos (pos_of_ne_zero hx0) hx])
  unfold fdivW
  rw [hc, select_zero, divsi_eq .host hx hd0 hd]

theorem fdivW_toNat (hx : x.toNat < 2 ^ 31) (hd0 : 0 < d.toNat) (hd : d.toNat < 2 ^ 31) :
    (fdivW d x).toNat = x.toNat / d.toNat := by
  rw [fdivW_eq hx hd0 hd, BitVec.toNat_udiv]

theorem modW_toNat (hx : x.toNat < 2 ^ 31) (hd0 : 0 < d.toNat) (hd : d.toNat < 2 ^ 31) :
    (modW d x).toNat = x.toNat % d.toNat := by
  unfold modW IntOp.subi IntOp.muli
  rw [fdivW_eq hx hd0 hd, BitVec.toNat_sub, BitVec.toNat_mul, BitVec.toNat_udiv]
  have h1 : x.toNat / d.toNat * d.toNat + x.toNat % d.toNat = x.toNat := Nat.div_add_mod' _ _
  generalize x.toNat / d.toNat * d.toNat = P at h1 ⊢
  generalize x.toNat % d.toNat = M at h1 ⊢
  omega

theorem remW_eq (hx : x.toNat < 2 ^ 31) (hd0 : 0 < d.toNat) (hd : d.toNat < 2 ^ 31) : remW d x = x % d := by
  have hd' : Scalar.select (IntOp.cmpi .eq d 0#32) 1#32 d = d := by
    have : IntOp.cmpi .eq d 0#32 = 0#1 := eq_zero_of_ne_one (mt IntOp.cmpi_eq.1 (ne_zero_of_pos hd0))
    rw [this, select_zero]
  have hr := remsi_eq .host hx hd0 hd
  have hrlt : (x % d).toNat < 2 ^ 31 := by
    rw [BitVec.toNat_umod]
    exact lt_of_lt_of_le (Nat.mod_lt _ hd0) (by omega)
  unfold remW
  rw [hd', hr, slt_zero hrlt, slt_zero hd]
  have hc : ∀ c : BitVec 1, IntOp.andi (IntOp.cmpi .ne (0#1) (0#1)) c = 0#1 := by decide
  rw [hc, select_zero]

theorem remW_toNat (hx : x.toNat < 2 ^ 31) (hd0 : 0 < d.toNat) (hd : d.toNat < 2 ^ 31) :
    (remW d x).toNat = x.toNat % d.toNat := by
  rw [remW_eq hx hd0 hd, BitVec.toNat_umod]

theorem wrapW_eq (e : BitVec 32) (hx : x.toNat < 2 ^ 31) : wrapW e x = x := by
  unfold wrapW
  rw [slt_zero hx, select_zero]

theorem clipW_eq {hi : BitVec 32} (hxh : x.toNat ≤ hi.toNat) (hhi : hi.toNat < 2 ^ 31) : clipW 0#32 hi x = x := by
  have hx : x.toNat < 2 ^ 31 := by omega
  have h0 : (0#32 : BitVec 32).toInt = 0 := by decide
  have hmax : IntOp.maxsi 0#32 x = x := by
    unfold IntOp.maxsi
    rw [if_neg]
    rw [BitVec.slt_iff_toInt_lt, toInt_small hx, h0]
    omega
  unfold clipW
  rw [hmax]
  unfold IntOp.minsi
  rw [if_neg]
  rw [BitVec.slt_iff_toInt_lt, toInt_small hx, toInt_small hhi]
  omega

theorem addi_toNat {a b : BitVec 32} (h : a.toNat + b.toNat < 2 ^ 32) : (IntOp.addi a b).toNat = a.toNat + b.toNat := by
  unfold IntOp.addi
  rw [BitVec.toNat_add, Nat.mod_eq_of_lt h]

theorem toNat_ofNat_small (n : ℕ) (h : n < 2 ^ 32) : (BitVec.ofNat 32 n).toNat = n := by
  rw [BitVec.toNat_ofNat, Nat.mod_eq_of_lt h]

theorem eq_ofNat_of_toNat {y : BitVec 32} {n : ℕ} (h : y.toNat = n) : y = BitVec.ofNat 32 n := by
  apply BitVec.eq_of_toNat_eq
  rw [h, toNat_ofNat_small n (h ▸ y.isLt)]

end Cert.IntDecode
-- ==== Proof.KI.HostLevel1.lean ====
import proofs.«426295_j69604239999073_3_alg».proof.Proof.Gen.KernelIdeal.Launch
import proofs.«426295_j69604239999073_3_alg».proof.Proof.IntDecode
import Idealize.ShloMosaic.Lib.Pipeline.Frame
import Idealize.ShloMosaic.PureOps.Ideal

noncomputable section

namespace Cert.KernelIdeal.Hand

open Cert.KernelIdeal Cert.KernelIdeal.Gen Idealize.ShloMosaic Idealize.ShloMosaic.TcCoe Idealize.ShloMosaic.StableHlo Cert.IntDecode

def A1 : List (HloOp τ sig (Elt Ideal)) := hostOps0 ++ hostOps0_1
def B1 : List (HloOp τ sig (Elt Ideal)) := hostOps0_2 ++ hostOps0_3
def C1 : List (HloOp τ sig (Elt Ideal)) := hostOps0_4 ++ hostOps0_5
def D1 : List (HloOp τ sig (Elt Ideal)) := hostOps0_6 ++ hostOps0_7
def E1 : List (HloOp τ sig (Elt Ideal)) := hostOps0_8 ++ hostOps0_9
def G1 : List (HloOp τ sig (Elt Ideal)) := hostOps0_10 ++ hostOps0_11
def L1 : List (HloOp τ sig (Elt Ideal)) := A1 ++ (B1 ++ (C1 ++ (D1 ++ (E1 ++ G1))))

-- The clamped flat index x splits as row x / (w·z), column (x mod w·z) / z and depth (x mod w·z) mod z, each clamped to its table.
theorem L1_dec (W : Valuation τ sig (Elt Ideal)) :
    (StableHlo.after L1 W main_v9 : S8000.Idx → BitVec 32)
      = (fun i => clipW 0#32 49#32 (fdivW 200#32 (clipW 0#32 9999#32 (W main_arg0 i)))) ∧
    (StableHlo.after L1 W main_v10 : S8000.Idx → BitVec 32)
      = (fun i => clipW 0#32 49#32 (fdivW 4#32 (modW 200#32 (clipW 0#32 9999#32 (W main_arg0 i))))) ∧
    (StableHlo.after L1 W main_v11 : S8000.Idx → BitVec 32)
      = fun i => clipW 0#32 3#32 (modW 4#32 (modW 200#32 (clipW 0#32 9999#32 (W main_arg0 i)))) := by
  simp only [L1, A1, B1, C1, D1, E1, G1, StableHlo.after_append]
  after_results_simp
  simp only [TRef.ofBuf, TRef.toBuf, cast_eq]
  exact ⟨rfl, rfl, rfl⟩

end Cert.KernelIdeal.Hand

end
-- ==== Proof.KI.HostLevel2.lean ====
import proofs.«426295_j69604239999073_3_alg».proof.Proof.Gen.KernelIdeal.Launch
import proofs.«426295_j69604239999073_3_alg».proof.Proof.IntDecode
import Idealize.ShloMosaic.Lib.Pipeline.Frame
import Idealize.ShloMosaic.PureOps.Ideal

noncomputable section

namespace Cert.KernelIdeal.Hand

open Cert.KernelIdeal Cert.KernelIdeal.Gen Idealize.ShloMosaic Idealize.ShloMosaic.TcCoe Idealize.ShloMosaic.StableHlo Cert.IntDecode

def A2 : List (HloOp τ sig (Elt Ideal)) := hostOps0_12 ++ hostOps0_13
def B2 : List (HloOp τ sig (Elt Ideal)) := hostOps0_14 ++ hostOps0_15
def C2 : List (HloOp τ sig (Elt Ideal)) := hostOps0_16 ++ hostOps0_17
def D2 : List (HloOp τ sig (Elt Ideal)) := hostOps0_18 ++ hostOps0_19
def E2 : List (HloOp τ sig (Elt Ideal)) := hostOps0_20 ++ hostOps0_21
def G2 : List (HloOp τ sig (Elt Ideal)) := hostOps0_22 ++ hostOps0_23
def L2 : List (HloOp τ sig (Elt Ideal)) := A2 ++ (B2 ++ (C2 ++ (D2 ++ (E2 ++ G2))))

-- The clamped flat index x splits as row x / (w·z), column (x mod w·z) / z and depth (x mod w·z) mod z, each clamped to its table.
theorem L2_dec (W : Valuation τ sig (Elt Ideal)) :
    (StableHlo.after L2 W main_v21 : S60000.Idx → BitVec 32)
      = (fun i => clipW 0#32 99#32 (fdivW 800#32 (clipW 0#32 79999#32 (W main_arg1 i)))) ∧
    (StableHlo.after L2 W main_v22 : S60000.Idx → BitVec 32)
      = (fun i => clipW 0#32 99#32 (fdivW 8#32 (modW 800#32 (clipW 0#32 79999#32 (W main_arg1 i))))) ∧
    (StableHlo.after L2 W main_v23 : S60000.Idx → BitVec 32)
      = fun i => clipW 0#32 7#32 (modW 8#32 (modW 800#32 (clipW 0#32 79999#32 (W main_arg1 i)))) := by
  simp only [L2, A2, B2, C2, D2, E2, G2, StableHlo.after_append]
  after_results_simp
  simp only [TRef.ofBuf, TRef.toBuf, cast_eq]
  exact ⟨rfl, rfl, rfl⟩

end Cert.KernelIdeal.Hand

end
-- ==== Proof.KI.HostLevel3.lean ====
import proofs.«426295_j69604239999073_3_alg».proof.Proof.Gen.KernelIdeal.Launch
import proofs.«426295_j69604239999073_3_alg».proof.Proof.IntDecode
import Idealize.ShloMosaic.Lib.Pipeline.Frame
import Idealize.ShloMosaic.PureOps.Ideal

noncomputable section

namespace Cert.KernelIdeal.Hand

open Cert.KernelIdeal Cert.KernelIdeal.Gen Idealize.ShloMosaic Idealize.ShloMosaic.TcCoe Idealize.ShloMosaic.StableHlo Cert.IntDecode

def A3 : List (HloOp τ sig (Elt Ideal)) := hostOps0_24 ++ hostOps0_25
def B3 : List (HloOp τ sig (Elt Ideal)) := hostOps0_26 ++ hostOps0_27
def C3 : List (HloOp τ sig (Elt Ideal)) := hostOps0_28 ++ hostOps0_29
def D3 : List (HloOp τ sig (Elt Ideal)) := hostOps0_30 ++ hostOps0_31
def E3 : List (HloOp τ sig (Elt Ideal)) := hostOps0_32 ++ hostOps0_33
def G3 : List (HloOp τ sig (Elt Ideal)) := hostOps0_34 ++ hostOps0_35
def L3 : List (HloOp τ sig (Elt Ideal)) := A3 ++ (B3 ++ (C3 ++ (D3 ++ (E3 ++ G3))))

-- The clamped flat index x splits as row x / (w·z), column (x mod w·z) / z and depth (x mod w·z) mod z, each clamped to its table.
theorem L3_dec (W : Valuation τ sig (Elt Ideal)) :
    (StableHlo.after L3 W main_v33 : S480000.Idx → BitVec 32)
      = (fun i => clipW 0#32 199#32 (fdivW 3200#32 (clipW 0#32 639999#32 (W main_arg2 i)))) ∧
    (StableHlo.after L3 W main_v34 : S480000.Idx → BitVec 32)
      = (fun i => clipW 0#32 199#32 (fdivW 16#32 (modW 3200#32 (clipW 0#32 639999#32 (W main_arg2 i))))) ∧
    (StableHlo.after L3 W main_v35 : S480000.Idx → BitVec 32)
      = fun i => clipW 0#32 15#32 (modW 16#32 (modW 3200#32 (clipW 0#32 639999#32 (W main_arg2 i)))) := by
  simp only [L3, A3, B3, C3, D3, E3, G3, StableHlo.after_append]
  after_results_simp
  simp only [TRef.ofBuf, TRef.toBuf, cast_eq]
  exact ⟨rfl, rfl, rfl⟩

end Cert.KernelIdeal.Hand

end
-- ==== Proof.KI.DecodeWords.lean ====
import proofs.«426295_j69604239999073_3_alg».proof.Proof.IntDecode

namespace Cert.KernelIdeal.Hand

open Cert.IntDecode Idealize.ShloMosaic

variable {x hi0 d1 d2 hiR hiC hiZ : BitVec 32}

theorem rowW_toNat (hx : x.toNat ≤ hi0.toNat) (hhi0 : hi0.toNat < 2 ^ 31) (hd10 : 0 < d1.toNat) (hd1 : d1.toNat < 2 ^ 31)
    (hR : hi0.toNat / d1.toNat ≤ hiR.toNat) (hhiR : hiR.toNat < 2 ^ 31) :
    (clipW 0#32 hiR (fdivW d1 (clipW 0#32 hi0 x))).toNat = x.toNat / d1.toNat := by
  have hq : (fdivW d1 x).toNat = _ := fdivW_toNat (by omega) hd10 hd1
  rw [clipW_eq hx hhi0, clipW_eq (hq.le.trans ((Nat.div_le_div_right hx).trans hR)) hhiR, hq]

-- The remainder by a divisor below 2^31 is again below 2^31.
theorem modW_small (hx : x.toNat ≤ hi0.toNat) (hhi0 : hi0.toNat < 2 ^ 31) (hd10 : 0 < d1.toNat) (hd1 : d1.toNat < 2 ^ 31) :
    (modW d1 x).toNat = x.toNat % d1.toNat ∧ x.toNat % d1.toNat < d1.toNat ∧ (modW d1 x).toNat < 2 ^ 31 := by
  have hm : (modW d1 x).toNat = _ := modW_toNat (by omega) hd10 hd1
  have hmlt := Nat.mod_lt x.toNat hd10
  exact ⟨hm, hmlt, by omega⟩

theorem colW_toNat (hx : x.toNat ≤ hi0.toNat) (hhi0 : hi0.toNat < 2 ^ 31) (hd10 : 0 < d1.toNat) (hd1 : d1.toNat < 2 ^ 31)
    (hd20 : 0 < d2.toNat) (hd2 : d2.toNat < 2 ^ 31) (hC : (d1.toNat - 1) / d2.toNat ≤ hiC.toNat) (hhiC : hiC.toNat < 2 ^ 31) :
    (clipW 0#32 hiC (fdivW d2 (modW d1 (clipW 0#32 hi0 x)))).toNat = x.toNat % d1.toNat / d2.toNat := by
  obtain ⟨hm, hmlt, hm31⟩ := modW_small hx hhi0 hd10 hd1
  have hq : (fdivW d2 (modW d1 x)).toNat = x.toNat % d1.toNat / d2.toNat := by rw [fdivW_toNat hm31 hd20 hd2, hm]
  rw [clipW_eq hx hhi0, clipW_eq (hq.le.trans ((Nat.div_le_div_right (by omega)).trans hC)) hhiC, hq]

theorem zeeW_toNat (hx : x.toNat ≤ hi0.toNat) (hhi0 : hi0.toNat < 2 ^ 31) (hd10 : 0 < d1.toNat) (hd1 : d1.toNat < 2 ^ 31)
    (hd20 : 0 < d2.toNat) (hd2 : d2.toNat < 2 ^ 31) (hZ : d2.toNat - 1 ≤ hiZ.toNat) (hhiZ : hiZ.toNat < 2 ^ 31) :
    (clipW 0#32 hiZ (modW d2 (modW d1 (clipW 0#32 hi0 x)))).toNat = x.toNat % d1.toNat % d2.toNat := by
  obtain ⟨hm, hmlt, hm31⟩ := modW_small hx hhi0 hd10 hd1
  have hr : (modW d2 (modW d1 x)).toNat = x.toNat % d1.toNat % d2.toNat := by rw [modW_toNat hm31 hd20 hd2, hm]
  have hrlt := Nat.mod_lt (x.toNat % d1.toNat) hd20
  have hle : (modW d2 (modW d1 x)).toNat ≤ hiZ.toNat := by omega
  rw [clipW_eq hx hhi0, clipW_eq hle hhiZ, hr]

end Cert.KernelIdeal.Hand
-- ==== Proof.KI.IndexAt.lean ====
import proofs.«426295_j69604239999073_3_alg».proof.Proof.Gen.KernelIdeal
import proofs.«426295_j69604239999073_3_alg».proof.Proof.Spec
import proofs.«426295_j69604239999073_3_alg».proof.Proof.IntDecode
import proofs.«426295_j69604239999073_3_alg».proof.Proof.KI.DecodeWords
import Idealize.ShloMosaic.Lib.Pipeline.Value
import Idealize.ShloMosaic.Lib.KernelVsHost
import Idealize.ShloMosaic.Lib.ValueIdx

noncomputable section

namespace Cert.KernelIdeal.Hand

open Cert.KernelIdeal Cert.KernelIdeal.Gen Idealize.ShloMosaic ValueIdx Cert.IntDecode

private theorem cat3_apply {α : Type} {n1 n2 n3 N : ℕ} (x1 : (⟨1, ![n1]⟩ : Shape).Idx → α) (x2 : (⟨1, ![n2]⟩ : Shape).Idx → α)
    (x3 : (⟨1, ![n3]⟩ : Shape).Idx → α)
    (h : Shape.Concatenates [(⟨1, ![n1]⟩ : Shape), ⟨1, ![n2]⟩, ⟨1, ![n3]⟩] ⟨1, ![N]⟩ 0) (p : Fin N) (hN : N = n1 + n2 + n3) (y : α)
    (h1 : ∀ hp : p.val < n1, x1 (ix1 ⟨p.val, hp⟩) = y)
    (h2 : n1 ≤ p.val → ∀ hp : p.val - n1 < n2, x2 (ix1 ⟨p.val - n1, hp⟩) = y)
    (h3 : n1 + n2 ≤ p.val → ∀ hp : p.val - (n1 + n2) < n3, x3 (ix1 ⟨p.val - (n1 + n2), hp⟩) = y) :
    concatenate (⟨1, ![N]⟩ : Shape) 0 [⟨_, x1⟩, ⟨_, x2⟩, ⟨_, x3⟩] h (ix1 p) = y := by
  have hp := p.isLt
  have key := fun k hk m (x : (⟨1, ![m]⟩ : Shape).Idx → α) hx pre hpre (q : Fin m) hq =>
    concatenate_apply_piece 0 [⟨_, x1⟩, ⟨_, x2⟩, ⟨_, x3⟩] h (ix1 p) k hk _ x hx rfl pre hpre (ix1 q) (fun b hb => absurd (Subsingleton.elim _ _) hb) hq
  by_cases hA : p.val < n1
  · exact (key 0 (by show 0 < 3; omega) _ x1 rfl 0 rfl ⟨p.val, hA⟩ (by show 0 + p.val = p.val; omega)).trans (h1 hA)
  by_cases hB : p.val < n1 + n2
  · exact (key 1 (by show 1 < 3; omega) _ x2 rfl n1 (by simp) ⟨p.val - n1, by omega⟩
      (by show n1 + (p.val - n1) = p.val; omega)).trans (h2 (by omega) _)
  · exact (key 2 (by show 2 < 3; omega) _ x3 rfl (n1 + n2) (by simp) ⟨p.val - (n1 + n2), by omega⟩
      (by show n1 + n2 + (p.val - (n1 + n2)) = p.val; omega)).trans (h3 (by omega) _)

theorem idxAt_of_lt {m : ℕ} (I : (⟨1, ![m]⟩ : Shape).Idx → BitVec 32) (p : ℕ) (hp : p < m) :
    Cert.Spec.idxAt I p = (I (ix1 ⟨p, hp⟩)).toNat := dif_pos hp

-- The three stacked levels, each a decoded word plus its offset, read at one position of the padded stack.
theorem stacked_at (D1 D2 D3 : BitVec 32 → BitVec 32) (o1 o2 o3 : BitVec 32) (f1 f2 f3 : ℕ → ℕ)
    (a0 : S8000.Idx → BitVec 32) (a1 : S60000.Idx → BitVec 32) (a2 : S480000.Idx → BitVec 32)
    (h1 : ∀ j, (IntOp.addi (D1 (a0 j)) o1).toNat = f1 (a0 j).toNat)
    (h2 : ∀ j, (IntOp.addi (D2 (a1 j)) o2).toNat = f2 (a1 j).toNat)
    (h3 : ∀ j, (IntOp.addi (D3 (a2 j)) o3).toNat = f3 (a2 j).toNat) (n : Fin 548864) :
    pad S548864 ![0] ![864] ![0]
        (concatenate S548000 0
          [⟨S8000, addi (fun i => D1 (a0 i)) (broadcastInDim S8000 ![] bcast_S_S8000 (constantI S_ 32 o1))⟩,
           ⟨S60000, addi (fun i => D2 (a1 i)) (broadcastInDim S60000 ![] bcast_S_S60000 (constantI S_ 32 o2))⟩,
           ⟨S480000, addi (fun i => D3 (a2 i)) (broadcastInDim S480000 ![] bcast_S_S480000 (constantI S_ 32 o3))⟩]
          concatenates_S8000_S60000_S480000_S548000_d0)
        (constantI S_ 32 0#32) pads_S548000_S548864_08640 h_S_ (ix1 n)
      = BitVec.ofNat 32 (if n.val < 548000 then
          (if n.val < 8000 then f1 (Cert.Spec.idxAt a0 n.val) else if n.val < 68000 then f2 (Cert.Spec.idxAt a1 (n.val - 8000))
            else f3 (Cert.Spec.idxAt a2 (n.val - 68000))) else 0) := by
  by_cases hn : n.val < 548000
  · rw [if_pos hn, pad_apply_of_inside _ _ _ _ _ pads_S548000_S548864_08640 h_S_ (ix1 n) (ix1 ⟨n.val, hn⟩) fun a => by
      match a with
      | ⟨0, _⟩ => show n.val = 0 + n.val * (0 + 1); omega]
    refine cat3_apply _ _ _ concatenates_S8000_S60000_S480000_S548000_d0 ⟨n.val, hn⟩ rfl _ (fun hA => ?_)
      (fun (hA : 8000 ≤ n.val) (hp : n.val - 8000 < 60000) => ?_) (fun (hB : 68000 ≤ n.val) (hp : n.val - 68000 < 480000) => ?_)
    · rw [if_pos hA, idxAt_of_lt a0 _ hA]
      exact eq_ofNat_of_toNat (h1 _)
    · rw [if_neg (by omega), if_pos (by omega), idxAt_of_lt a1 _ hp]
      exact eq_ofNat_of_toNat (h2 _)
    · rw [if_neg (by omega), if_neg (by omega), idxAt_of_lt a2 _ hp]
      exact eq_ofNat_of_toNat (h3 _)
  · rw [if_neg hn, pad_apply_of_not_inside _ _ _ _ _ pads_S548000_S548864_08640 h_S_ (ix1 n) 0 fun hc => by
      have h3 : (n.val - 0) / (0 + 1) < 548000 := hc.2.2
      simp at h3; omega]
    rfl

private theorem off_toNat {w o : BitVec 32} {q : ℕ} (hw : w.toNat = q) (hq : q < 2 ^ 31) (ho : o.toNat < 2 ^ 31) :
    (IntOp.addi w o).toNat = o.toNat + q := by
  rw [addi_toNat (by rw [hw]; omega), hw, Nat.add_comm]

abbrev rowD (H d R x : BitVec 32) : BitVec 32 := clipW 0#32 R (fdivW d (clipW 0#32 H x))
abbrev colD (H d e R x : BitVec 32) : BitVec 32 := clipW 0#32 R (fdivW e (modW d (clipW 0#32 H x)))
abbrev zeeD (H d e R x : BitVec 32) : BitVec 32 := clipW 0#32 R (modW e (modW d (clipW 0#32 H x)))

-- A level's row word: an index below its bound, divided by the row length, plus the level's first row.
theorem rowL {x H d R o : BitVec 32} (hx : x.toNat ≤ H.toNat)
    (hc : H.toNat < 2 ^ 31 ∧ 0 < d.toNat ∧ d.toNat < 2 ^ 31 ∧ H.toNat / d.toNat ≤ R.toNat ∧ R.toNat < 2 ^ 31 ∧ o.toNat < 2 ^ 31) :
    (IntOp.addi (rowD H d R x) o).toNat = o.toNat + x.toNat / d.toNat := by
  obtain ⟨hH, hd, hd', hR, hR', ho⟩ := hc
  exact off_toNat (rowW_toNat hx hH hd hd' hR hR') (by have := Nat.div_le_self x.toNat d.toNat; omega) ho

-- A level's column word: the remainder within the row, divided by the cell width, plus the level's first column.
theorem colL {x H d e R o : BitVec 32} (hx : x.toNat ≤ H.toNat)
    (hc : H.toNat < 2 ^ 31 ∧ 0 < d.toNat ∧ d.toNat < 2 ^ 31 ∧ 0 < e.toNat ∧ e.toNat < 2 ^ 31 ∧ (d.toNat - 1) / e.toNat ≤ R.toNat
      ∧ R.toNat < 2 ^ 31 ∧ o.toNat < 2 ^ 31) :
    (IntOp.addi (colD H d e R x) o).toNat = o.toNat + x.toNat % d.toNat / e.toNat := by
  obtain ⟨hH, hd, hd', he, he', hR, hR', ho⟩ := hc
  exact off_toNat (colW_toNat hx hH hd hd' he he' hR hR')
    (by have := Nat.mod_lt x.toNat hd; have := Nat.div_le_self (x.toNat % d.toNat) e.toNat; omega) ho

-- A level's depth word: the remainder within the cell (the cell width divides the row length), plus the level's first depth.
theorem zeeL {x H d e R o : BitVec 32} (hx : x.toNat ≤ H.toNat)
    (hc : H.toNat < 2 ^ 31 ∧ 0 < d.toNat ∧ d.toNat < 2 ^ 31 ∧ 0 < e.toNat ∧ e.toNat < 2 ^ 31 ∧ e.toNat - 1 ≤ R.toNat ∧ R.toNat < 2 ^ 31
      ∧ o.toNat < 2 ^ 31 ∧ e.toNat ∣ d.toNat) :
    (IntOp.addi (zeeD H d e R x) o).toNat = o.toNat + x.toNat % e.toNat := by
  obtain ⟨hH, hd, hd', he, he', hR, hR', ho, hde⟩ := hc
  rw [← Nat.mod_mod_of_dvd x.toNat hde]
  exact off_toNat (zeeW_toNat hx hH hd hd' he he' hR hR') (by have := Nat.mod_lt (x.toNat % d.toNat) he; omega) ho

end Cert.KernelIdeal.Hand

end
-- ==== Proof.KI.HostValue.lean ====
import proofs.«426295_j69604239999073_3_alg».proof.Proof.LibReadStretch
import proofs.«426295_j69604239999073_3_alg».proof.Proof.KI.HostLevel1
import proofs.«426295_j69604239999073_3_alg».proof.Proof.KI.HostLevel2
import proofs.«426295_j69604239999073_3_alg».proof.Proof.KI.HostLevel3
import proofs.«426295_j69604239999073_3_alg».proof.Proof.KI.IndexAt
import proofs.«426295_j69604239999073_3_alg».proof.Proof.KI.Entry

noncomputable section

namespace Cert.KernelIdeal.Hand

open Cert.KernelIdeal Cert.KernelIdeal.Gen Idealize.ShloMosaic Idealize.ShloMosaic.TcCoe Idealize.ShloMosaic.StableHlo ValueIdx

variable (W V : Valuation τ sig (Elt Ideal))

-- The twelve stretches of one level keep every reference that none of them writes.
theorem keepL {a : ℕ} {L : List (HloOp τ sig (Elt Ideal))} (e : L = ((stretches.drop a).take 12).flatten) (r : Ref sig .tc)
    (h : r ∉ ((written.drop a).take 12).flatten) : after L V (Proc.devRef .tc r) = V (Proc.devRef .tc r) := by
  subst e; exact after_flatten_keep _ _ V (List.forall₂_take 12 (List.forall₂_drop a stretches_writes)) h

def T : List (HloOp τ sig (Elt Ideal)) :=
  hostOps0_36 ++ (hostOps0_37 ++ (hostOps0_38 ++ (hostOps0_39 ++ (hostOps0_40 ++ (hostOps0_41 ++ hostOps0_42)))))

theorem levels : L1 = ((stretches.drop 0).take 12).flatten ∧ L2 = ((stretches.drop 12).take 12).flatten
    ∧ L3 = ((stretches.drop 24).take 12).flatten
    ∧ ∀ X : Valuation τ sig (Elt Ideal), after stretches.flatten X = after T (after L3 (after L2 (after L1 X))) := by
  simp only [stretches, List.drop, List.take, L1, A1, B1, C1, D1, E1, G1, L2, A2, B2, C2, D2, E2, G2, L3, A3, B3, C3, D3, E3, G3, T,
    List.flatten_cons, List.flatten_nil, List.append_nil, List.append_assoc, after_append, and_self, implies_true]

abbrev padCat (x : S8000.Idx → BitVec 32) (y : S60000.Idx → BitVec 32) (z : S480000.Idx → BitVec 32) (a b c : BitVec 32) :
    S548864.Idx → BitVec 32 :=
  pad S548864 ![0] ![864] ![0]
    (concatenate S548000 0
      [⟨S8000, addi x (broadcastInDim S8000 ![] bcast_S_S8000 (constantI S_ 32 a))⟩,
       ⟨S60000, addi y (broadcastInDim S60000 ![] bcast_S_S60000 (constantI S_ 32 b))⟩,
       ⟨S480000, addi z (broadcastInDim S480000 ![] bcast_S_S480000 (constantI S_ 32 c))⟩]
      concatenates_S8000_S60000_S480000_S548000_d0)
    (constantI S_ 32 0#32) pads_S548000_S548864_08640 h_S_

theorem T_pads : StableHlo.after T V main_v60 = padCat (V main_v9) (V main_v21) (V main_v33) 0#32 104#32 312#32
    ∧ StableHlo.after T V main_v61 = padCat (V main_v10) (V main_v22) (V main_v34) 50#32 204#32 512#32
    ∧ StableHlo.after T V main_v62 = padCat (V main_v11) (V main_v23) (V main_v35) 100#32 304#32 712#32 := by
  simp only [T, hostOps0_36, hostOps0_37, hostOps0_38, hostOps0_39, hostOps0_40, hostOps0_41, hostOps0_42, List.cons_append, List.nil_append]
  read_stretch
  exact ⟨rfl, rfl, rfl⟩

theorem v60_apply
    (h1 : ∀ j, ((W main_arg0 : S8000.Idx → BitVec 32) j).toNat < 10000)
    (h2 : ∀ j, ((W main_arg1 : S60000.Idx → BitVec 32) j).toNat < 80000)
    (h3 : ∀ j, ((W main_arg2 : S480000.Idx → BitVec 32) j).toNat < 640000) (n : Fin 548864) :
    (StableHlo.after stretches.flatten W main_v60 : S548864.Idx → BitVec 32) (ix1 n)
      = BitVec.ofNat 32 (if n.val < 548000 then
          Cert.Spec.gRow (Cert.Spec.idxAt (W main_arg0 : S8000.Idx → BitVec 32)) (Cert.Spec.idxAt (W main_arg1 : S60000.Idx → BitVec 32))
            (Cert.Spec.idxAt (W main_arg2 : S480000.Idx → BitVec 32)) n.val else 0) := by
  rw [levels.2.2.2, (T_pads _).1,
    keepL _ levels.2.2.1 main_v9 (by decide), keepL _ levels.2.1 main_v9 (by decide), (L1_dec _).1,
    keepL _ levels.2.2.1 main_v21 (by decide), (L2_dec _).1, keepL _ levels.1 main_arg1 (by decide),
    (L3_dec _).1, keepL _ levels.2.1 main_arg2 (by decide), keepL _ levels.1 main_arg2 (by decide)]
  exact stacked_at (rowD 9999#32 200#32 49#32) (rowD 79999#32 800#32 99#32) (rowD 639999#32 3200#32 199#32) 0#32 104#32 312#32 (· / 200) (104 + · / 800)
    (312 + · / 3200) _ _ _ (fun j => (rowL (Nat.le_of_lt_succ (h1 j)) (by decide)).trans (Nat.zero_add _)) (fun j => rowL (Nat.le_of_lt_succ (h2 j)) (by decide))
    (fun j => rowL (Nat.le_of_lt_succ (h3 j)) (by decide)) n

theorem v61_apply
    (h1 : ∀ j, ((W main_arg0 : S8000.Idx → BitVec 32) j).toNat < 10000)
    (h2 : ∀ j, ((W main_arg1 : S60000.Idx → BitVec 32) j).toNat < 80000)
    (h3 : ∀ j, ((W main_arg2 : S480000.Idx → BitVec 32) j).toNat < 640000) (n : Fin 548864) :
    (StableHlo.after stretches.flatten W main_v61 : S548864.Idx → BitVec 32) (ix1 n)
      = BitVec.ofNat 32 (if n.val < 548000 then
          Cert.Spec.gCol (Cert.Spec.idxAt (W main_arg0 : S8000.Idx → BitVec 32)) (Cert.Spec.idxAt (W main_arg1 : S60000.Idx → BitVec 32))
            (Cert.Spec.idxAt (W main_arg2 : S480000.Idx → BitVec 32)) n.val else 0) := by
  rw [levels.2.2.2, (T_pads _).2.1,
    keepL _ levels.2.2.1 main_v10 (by decide), keepL _ levels.2.1 main_v10 (by decide), (L1_dec _).2.1,
    keepL _ levels.2.2.1 main_v22 (by decide), (L2_dec _).2.1, keepL _ levels.1 main_arg1 (by decide),
    (L3_dec _).2.1, keepL _ levels.2.1 main_arg2 (by decide), keepL _ levels.1 main_arg2 (by decide)]
  exact stacked_at (colD 9999#32 200#32 4#32 49#32) (colD 79999#32 800#32 8#32 99#32) (colD 639999#32 3200#32 16#32 199#32) 50#32 204#32 512#32
    (50 + · % 200 / 4) (204 + · % 800 / 8) (512 + · % 3200 / 16) _ _ _ (fun j => colL (Nat.le_of_lt_succ (h1 j)) (by decide))
    (fun j => colL (Nat.le_of_lt_succ (h2 j)) (by decide)) (fun j => colL (Nat.le_of_lt_succ (h3 j)) (by decide)) n

theorem v62_apply
    (h1 : ∀ j, ((W main_arg0 : S8000.Idx → BitVec 32) j).toNat < 10000)
    (h2 : ∀ j, ((W main_arg1 : S60000.Idx → BitVec 32) j).toNat < 80000)
    (h3 : ∀ j, ((W main_arg2 : S480000.Idx → BitVec 32) j).toNat < 640000) (n : Fin 548864) :
    (StableHlo.after stretches.flatten W main_v62 : S548864.Idx → BitVec 32) (ix1 n)
      = BitVec.ofNat 32 (if n.val < 548000 then
          Cert.Spec.gZee (Cert.Spec.idxAt (W main_arg0 : S8000.Idx → BitVec 32)) (Cert.Spec.idxAt (W main_arg1 : S60000.Idx → BitVec 32))
            (Cert.Spec.idxAt (W main_arg2 : S480000.Idx → BitVec 32)) n.val else 0) := by
  rw [levels.2.2.2, (T_pads _).2.2,
    keepL _ levels.2.2.1 main_v11 (by decide), keepL _ levels.2.1 main_v11 (by decide), (L1_dec _).2.2,
    keepL _ levels.2.2.1 main_v23 (by decide), (L2_dec _).2.2, keepL _ levels.1 main_arg1 (by decide),
    (L3_dec _).2.2, keepL _ levels.2.1 main_arg2 (by decide), keepL _ levels.1 main_arg2 (by decide)]
  exact stacked_at (zeeD 9999#32 200#32 4#32 3#32) (zeeD 79999#32 800#32 8#32 7#32) (zeeD 639999#32 3200#32 16#32 15#32) 100#32 304#32 712#32
    (100 + · % 4) (304 + · % 8) (712 + · % 16) _ _ _ (fun j => zeeL (Nat.le_of_lt_succ (h1 j)) (by decide))
    (fun j => zeeL (Nat.le_of_lt_succ (h2 j)) (by decide)) (fun j => zeeL (Nat.le_of_lt_succ (h3 j)) (by decide)) n

end Cert.KernelIdeal.Hand

end
-- ==== Proof.KI.Value.lean ====
import proofs.«426295_j69604239999073_3_alg».proof.Proof.KI.Cover
import proofs.«426295_j69604239999073_3_alg».proof.Proof.KI.Target
import proofs.«426295_j69604239999073_3_alg».proof.Proof.KI.Frame
import proofs.«426295_j69604239999073_3_alg».proof.Proof.KI.Payload
import proofs.«426295_j69604239999073_3_alg».proof.Proof.KI.HostTable
import proofs.«426295_j69604239999073_3_alg».proof.Proof.KI.HostValue

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

def TablesReal : Prop :=
  (∀ (c : Dev nD) j, ∃ x : ℝ, (m ((c.tc : Thread nD τ).loc main_arg3) : S50x256.Idx → EReal) j = (x : EReal))
    ∧ (∀ (c : Dev nD) j, ∃ x : ℝ, (m ((c.tc : Thread nD τ).loc main_arg4) : S50x256.Idx → EReal) j = (x : EReal))
    ∧ (∀ (c : Dev nD) j, ∃ x : ℝ, (m ((c.tc : Thread nD τ).loc main_arg5) : S4x256.Idx → EReal) j = (x : EReal))
    ∧ (∀ (c : Dev nD) j, ∃ x : ℝ, (m ((c.tc : Thread nD τ).loc main_arg6) : S100x256.Idx → EReal) j = (x : EReal))
    ∧ (∀ (c : Dev nD) j, ∃ x : ℝ, (m ((c.tc : Thread nD τ).loc main_arg7) : S100x256.Idx → EReal) j = (x : EReal))
    ∧ (∀ (c : Dev nD) j, ∃ x : ℝ, (m ((c.tc : Thread nD τ).loc main_arg8) : S8x256.Idx → EReal) j = (x : EReal))
    ∧ (∀ (c : Dev nD) j, ∃ x : ℝ, (m ((c.tc : Thread nD τ).loc main_arg9) : S200x256.Idx → EReal) j = (x : EReal))
    ∧ (∀ (c : Dev nD) j, ∃ x : ℝ, (m ((c.tc : Thread nD τ).loc main_arg10) : S200x256.Idx → EReal) j = (x : EReal))
    ∧ (∀ (c : Dev nD) j, ∃ x : ℝ, (m ((c.tc : Thread nD τ).loc main_arg11) : S16x256.Idx → EReal) j = (x : EReal))

theorem hiBlk_tab (c : Dev nD) (t : Fin cfg0.N) (r : Fin 728) (j : Fin 256) :
    hiBlk m c t (ix2 r j) = aTab m c r.val j.val :=
  (hiBlk_apply m c t r j).trans (v63_apply (fun b => m (c, b)) r j)

theorem hiSlice_apply (c : Dev nD) (t : Fin cfg0.N) (base K : ℕ) (hK : base + K ≤ 728) (r : Fin K) (j : Fin 256) :
    tabSlice base (⟨2, ![K, 256]⟩ : Shape) (hiBlk m c t) (ix2 r j) = aTab m c (base + r.val) j.val :=
  (tabSlice_apply base K hK (hiBlk m c t) r j).trans (hiBlk_tab m c t ⟨base + r.val, by omega⟩ j)

theorem loBlk_zero (hfin : TablesReal m) (c : Dev nD) (t : Fin cfg0.N) (j : S728x256.Idx) : loBlk m c t j = 0 := by
  obtain ⟨r, f, rfl⟩ : ∃ (r : Fin 728) (f : Fin 256), j = ix2 r f := ⟨j 0, j 1, eq_ix2 j⟩
  obtain ⟨f3, f4, f5, f6, f7, f8, f9, f10, f11⟩ := hfin
  exact (loBlk_apply m c t r f).trans (v66_apply (fun b => m (c, b)) (f3 c) (f4 c) (f5 c) (f6 c) (f7 c) (f8 c) (f9 c) (f10 c) (f11 c) (ix2 r f))

theorem loSlice_zero (hfin : TablesReal m) (c : Dev nD) (t : Fin cfg0.N) (base K : ℕ) (hK : base + K ≤ 728)
    (j : (⟨2, ![K, 256]⟩ : Shape).Idx) : tabSlice base (⟨2, ![K, 256]⟩ : Shape) (loBlk m c t) j = 0 := by
  obtain ⟨r, f, rfl⟩ : ∃ (r : Fin K) (f : Fin 256), j = ix2 r f := ⟨j 0, j 1, eq_ix2 j⟩
  exact (tabSlice_apply base K hK (loBlk m c t) r f).trans (loBlk_zero m hfin c t _)

variable (h1 : ∀ (c : Dev nD) j, (m ((c.tc : Thread nD τ).loc main_arg0) j).toNat < 10000)
  (h2 : ∀ (c : Dev nD) j, (m ((c.tc : Thread nD τ).loc main_arg1) j).toNat < 80000)
  (h3 : ∀ (c : Dev nD) j, (m ((c.tc : Thread nD τ).loc main_arg2) j).toNat < 640000)
include h1 h2 h3

-- Entry p of tile t of the three index blocks holds the decoded row, column and depth numbers of position 2048 t + p.
theorem blk_num (c : Dev nD) (t : Fin cfg0.N) (p : Fin 2048) (hn : 2048 * t.val + p.val < 548000) :
    rowBlk m c t (ix1 p) = BitVec.ofNat 32 (gR m c (2048 * t.val + p.val))
      ∧ colBlk m c t (ix1 p) = BitVec.ofNat 32 (gC m c (2048 * t.val + p.val))
      ∧ zeeBlk m c t (ix1 p) = BitVec.ofNat 32 (gZ m c (2048 * t.val + p.val)) :=
  ⟨(rowBlk_apply m c t p (by omega)).trans ((v60_apply (fun b => m (c, b)) (h1 c) (h2 c) (h3 c) _).trans (congrArg (BitVec.ofNat 32) (if_pos hn))),
    (colBlk_apply m c t p (by omega)).trans ((v61_apply (fun b => m (c, b)) (h1 c) (h2 c) (h3 c) _).trans (congrArg (BitVec.ofNat 32) (if_pos hn))),
    (zeeBlk_apply m c t p (by omega)).trans ((v62_apply (fun b => m (c, b)) (h1 c) (h2 c) (h3 c) _).trans (congrArg (BitVec.ofNat 32) (if_pos hn)))⟩

-- One point of the output, for any case: the tile's payload X reads rows a, b, d of a table slice H that starts at row base.
theorem point_of (c : Dev nD) (t : Fin cfg0.N) (p : Fin 2048) (f : Fin 256) (hn : 2048 * t.val + p.val < 548000)
    (base K : ℕ) (hlo : base ≤ gR m c (2048 * t.val + p.val)) (hhi : gZ m c (2048 * t.val + p.val) < base + K)
    (H L : (⟨2, ![K, 256]⟩ : Shape).Idx → EReal)
    (hH : ∀ (r : Fin K) (j : Fin 256), H (ix2 r j) = aTab m c (base + r.val) j.val) (hL : ∀ j, L j = 0)
    (X : S2048x256.Idx → EReal) (hout : outAt0 m c t = X)
    (hX : ∀ a b d : Fin K, rowBlk m c t (ix1 p) = BitVec.ofNat 32 (base + a.val)
      → colBlk m c t (ix1 p) = BitVec.ofNat 32 (base + b.val) → zeeBlk m c t (ix1 p) = BitVec.ofNat 32 (base + d.val)
      → a ≠ b → a ≠ d → b ≠ d → (∀ j, L j = 0)
      → X (ix2 p f) = Cert.Spec.rowNorm (fun j => H (ix2 a j) + H (ix2 b j) + H (ix2 d j))
          (fun j => gammaBlk m c t (ix2 (0 : Fin 1) j)) (fun j => betaBlk m c t (ix2 (0 : Fin 1) j)) f) :
    outAt0 m c t (ix2 p f) = Gout m c (ix2 ⟨2048 * t.val + p.val, hn⟩ f) := by
  obtain ⟨o1, o2, o3⟩ : gR m c _ < gC m c _ ∧ gC m c _ < gZ m c _ ∧ gZ m c _ < 728 := g_all (aI1 m c) (aI2 m c) (aI3 m c)
    (idxAt_lt _ (by omega) (h1 c)) (idxAt_lt _ (by omega) (h2 c)) (idxAt_lt _ (by omega) (h3 c)) (2048 * t.val + p.val)
  obtain ⟨e0, e2, e4⟩ := blk_num m h1 h2 h3 c t p hn
  have ea := Nat.add_sub_cancel' hlo
  have eb := Nat.add_sub_cancel' (hlo.trans o1.le)
  have ed := Nat.add_sub_cancel' (hlo.trans (o1.trans o2).le)
  refine (congrFun hout _).trans ((hX ⟨gR m c _ - base, by omega⟩ ⟨gC m c _ - base, by omega⟩ ⟨gZ m c _ - base, by omega⟩
    (e0.trans (congrArg (BitVec.ofNat 32) ea.symm)) (e2.trans (congrArg (BitVec.ofNat 32) eb.symm))
    (e4.trans (congrArg (BitVec.ofNat 32) ed.symm)) (Fin.ne_of_val_ne (by dsimp only; omega))
    (Fin.ne_of_val_ne (by dsimp only; omega)) (Fin.ne_of_val_ne (by dsimp only; omega)) hL).trans
    (row_eq m h1 h2 h3 c _ hn f _ _ _ (fun j => ?_)
      (fun j => (gammaBlk_apply m c t j).trans ((v58_apply (fun b => m (c, b)) j).trans (vecAt_apply _ j).symm))
      (fun j => (betaBlk_apply m c t j).trans ((v59_apply (fun b => m (c, b)) j).trans (vecAt_apply _ j).symm))))
  rw [hH, hH, hH]
  dsimp only
  rw [ea, eb, ed]

-- The tile number selects the case; each case's payload reads its own slice of the table.
theorem point_eq
    (hfin : TablesReal m) (c : Dev nD) (t : Fin cfg0.N) (p : Fin 2048) (f : Fin 256)
    (hn : 2048 * t.val + p.val < 548000) :
    outAt0 m c t (ix2 p f) = Gout m c (ix2 ⟨2048 * t.val + p.val, hn⟩ f) := by
  have hp := p.isLt
  have P := point_of m h1 h2 h3 c t p f hn
  by_cases c1 : t.val ≤ 2
  · have := g_lvl1 (aI1 m c) (aI2 m c) (aI3 m c) (idxAt_lt _ (by omega) (h1 c)) (2048 * t.val + p.val) (by omega)
    exact P 0 104 (by omega) (by unfold gZ; omega) _ _ (hiSlice_apply m c t 0 104 (by omega))
      (loSlice_zero m hfin c t 0 104 (by omega)) _ (Eq.trans (by unfold outAt0 run0; rw [dif_pos c1]; rfl) (out0_P1_7_eq ..))
      (fun a b d ha hb hd hab had hbd hL => pay_gen (by norm_num) iota_S2048x104_d1_w32 broadcasts_S2048x1_S2048x104 _ _ _ p a b d
        (subBase_apply 0 _ _ p ha) (subBase_apply 0 _ _ p hb) (subBase_apply 0 _ _ p hd) hab had hbd _ _ hL
        shapeCasts_S104x256_S104x256 (gammaBlk m c t) (betaBlk m c t) f)
  by_cases c2 : 4 ≤ t.val ∧ t.val ≤ 32
  · have := g_lvl2 (aI1 m c) (aI2 m c) (aI3 m c) (idxAt_lt _ (by omega) (h2 c)) (2048 * t.val + p.val) (by omega) (by omega)
    exact P 104 208 (by unfold gR; omega) (by unfold gZ; omega) _ _ (hiSlice_apply m c t 104 208 (by omega))
      (loSlice_zero m hfin c t 104 208 (by omega)) _ (Eq.trans (by unfold outAt0 run0; rw [dif_neg c1, dif_pos c2]; rfl) (out0_P2_7_eq ..))
      (fun a b d ha hb hd hab had hbd hL => pay_gen (by norm_num) iota_S2048x208_d1_w32 broadcasts_S2048x1_S2048x208 _ _ _ p a b d
        (subBase_apply 104 _ _ p ha) (subBase_apply 104 _ _ p hb) (subBase_apply 104 _ _ p hd) hab had hbd _ _ hL
        shapeCasts_S208x256_S208x256 (gammaBlk m c t) (betaBlk m c t) f)
  by_cases c3 : 34 ≤ t.val
  · have := g_lvl3 (aI1 m c) (aI2 m c) (aI3 m c) (idxAt_lt _ (by omega) (h3 c)) (2048 * t.val + p.val) (by omega)
    exact P 312 416 (by unfold gR; omega) (by unfold gZ; omega) _ _ (hiSlice_apply m c t 312 416 (by omega))
      (loSlice_zero m hfin c t 312 416 (by omega)) _ (Eq.trans (by unfold outAt0 run0; rw [dif_neg c1, dif_neg c2, dif_pos c3]; rfl) (out0_P3_7_eq ..))
      (fun a b d ha hb hd hab had hbd hL => pay_gen (by norm_num) iota_S2048x416_d1_w32 broadcasts_S2048x1_S2048x416 _ _ _ p a b d
        (subBase_apply 312 _ _ p ha) (subBase_apply 312 _ _ p hb) (subBase_apply 312 _ _ p hd) hab had hbd _ _ hL
        shapeCasts_S416x256_S416x256 (gammaBlk m c t) (betaBlk m c t) f)
  · have := g_all (aI1 m c) (aI2 m c) (aI3 m c) (idxAt_lt _ (by omega) (h1 c)) (idxAt_lt _ (by omega) (h2 c))
      (idxAt_lt _ (by omega) (h3 c)) (2048 * t.val + p.val)
    exact P 0 728 (by omega) (by unfold gZ; omega) _ _
      (fun r j => (hiBlk_tab m c t r j).trans (congrArg (fun x => aTab m c x j.val) (Nat.zero_add r.val).symm))
      (loBlk_zero m hfin c t) _ (Eq.trans (by unfold outAt0 run0; rw [dif_neg c1, dif_neg c2, dif_neg c3]; rfl) (out0_S_7_eq ..))
      (fun a b d ha hb hd hab had hbd hL => pay_gen (by norm_num) iota_S2048x728_d1_w32 broadcasts_S2048x1_S2048x728 _ _ _ p a b d
        ((congrFun (pay1_eq _) _).trans (ha.trans (by rw [Nat.zero_add]))) ((congrFun (pay1_eq _) _).trans (hb.trans (by rw [Nat.zero_add])))
        ((congrFun (pay1_eq _) _).trans (hd.trans (by rw [Nat.zero_add]))) hab had hbd _ _ hL
        shapeCasts_S728x256_S728x256 (gammaBlk m c t) (betaBlk m c t) f)

theorem flushed7_eq
    (hfin : TablesReal m) (c : Dev nD) (t : Fin cfg0.N) :
    (dats m 0 c).flushed 7 t = ((cfg0.win 7).blk t).view.read (Elt Ideal) (Gout m c) := by
  show (cfg0.win 7).cut (grid0.coords t) ((dats m 0 c).after 7 t) = _
  rw [after0_7]
  refine funext fun (j : (win0_7.xblock (grid0.coords t)).Idx) => ?_
  obtain ⟨hp, hn⟩ := rows_inside t (j 0).val (j 0).isLt
  have hf : (j 1).val < 256 := feats_inside t (j 1).val (j 1).isLt
  exact (congrArg (outAt0 m c t) (xinj7 t j hp hf)).trans
    ((point_eq m h1 h2 h3 hfin c t ⟨(j 0).val, hp⟩ ⟨(j 1).val, hf⟩ hn).trans (congrArg (Gout m c) (emb7 t j hn hf)).symm)

theorem run_value (hfin : TablesReal m) :
    θ_run defs (onTc (τ := τ) (main (F := Ideal))) ⟨m, fun _ => 0, ρ⟩ fun r => ∀ c : Dev nD,
      r.2.mem ((c.tc : Thread nD τ).loc main_v67) = Gout m c
      ∧ argRefs.Forall fun a => r.2.mem ((c.tc : Thread nD τ).loc a) = m ((c.tc : Thread nD τ).loc a) :=
  (θ_run defs _ _).mono (fun r h c => ⟨((h c).1 7).trans ((dats m 0 c).arrAt_eq_of_cover 7 (Gout m c) (fun t _ => flushed7_eq m h1 h2 h3 hfin c t) cover7), by
      repeat' apply And.intro
      all_goals exact ((h c).2 _ (Pipeline.mem_restRefs_of _ (by decide) (by decide))).trans (V_of_not_written m c _ (by decide))⟩)
    (run_main m ρ)

end Cert.KernelIdeal.Hand

end
-- ==== Proof.Ref.Fns.lean ====
import Idealize.ShloMosaic.PureOps.Vector
import Idealize.ShloMosaic.PureOps.ShapeOps

namespace Cert.ReferenceIdeal.Hand

open Idealize.ShloMosaic

variable {F : FTy → Type} [FloatOps F]

abbrev S0 : Shape := ⟨0, ![]⟩

abbrev V1 (n : Nat) : Shape := ⟨1, ![n]⟩

abbrev M2 (a b : Nat) : Shape := ⟨2, ![a, b]⟩

def floorDivV {n : Nat} (bs : S0.BroadcastsInDim (V1 n) (![] : Fin 0 → Fin (V1 n).rank)) (d : IVec S0 32) (x : IVec (V1 n) 32) :
    IVec (V1 n) 32 :=
  select
    (andi (cmpi .ne (signi x) (broadcastInDim (V1 n) ![] bs (signi (id d))))
      (cmpi .ne (Host.remsi x (broadcastInDim (V1 n) ![] bs (id d))) (broadcastInDim (V1 n) ![] bs (constantI S0 32 0#32))))
    (subi (Host.divsi x (broadcastInDim (V1 n) ![] bs (id d))) (broadcastInDim (V1 n) ![] bs (constantI S0 32 1#32)))
    (Host.divsi x (broadcastInDim (V1 n) ![] bs (id d)))

def safeDiv (d : IVec S0 32) : IVec S0 32 :=
  select (cmpi .eq (id d) (constantI S0 32 0#32)) (constantI S0 32 1#32) (id d)

def remV {n : Nat} (bs : S0.BroadcastsInDim (V1 n) (![] : Fin 0 → Fin (V1 n).rank)) (d : IVec S0 32) (x : IVec (V1 n) 32) :
    IVec (V1 n) 32 :=
  select
    (andi
      (cmpi .ne
        (cmpi .slt (Host.remsi x (broadcastInDim (V1 n) ![] bs (safeDiv d))) (broadcastInDim (V1 n) ![] bs (constantI S0 32 0#32)))
        (broadcastInDim (V1 n) ![] bs (cmpi .slt (safeDiv d) (constantI S0 32 0#32))))
      (cmpi .ne (Host.remsi x (broadcastInDim (V1 n) ![] bs (safeDiv d))) (broadcastInDim (V1 n) ![] bs (constantI S0 32 0#32))))
    (addi (Host.remsi x (broadcastInDim (V1 n) ![] bs (safeDiv d))) (broadcastInDim (V1 n) ![] bs (safeDiv d)))
    (Host.remsi x (broadcastInDim (V1 n) ![] bs (safeDiv d)))

def wrapV {n : Nat} (bs : S0.BroadcastsInDim (V1 n) (![] : Fin 0 → Fin (V1 n).rank)) (e : BitVec 32) (x : IVec (V1 n) 32) :
    IVec (V1 n) 32 :=
  select (cmpi .slt x (broadcastInDim (V1 n) ![] bs (constantI S0 32 0#32)))
    (addi x (broadcastInDim (V1 n) ![] bs (constantI S0 32 e))) x

def rowsV {n h : Nat} (bs : S0.BroadcastsInDim (V1 n) (![] : Fin 0 → Fin (V1 n).rank))
    (bc : (V1 n).BroadcastsInDim (M2 n 1) (![0] : Fin 1 → Fin (M2 n 1).rank))
    (g : GatherDims (M2 h 256) (M2 n 1) (M2 n 256)) (e : BitVec 32) (T : FVec F (M2 h 256) .f32) (x : IVec (V1 n) 32) :
    FVec F (M2 n 256) .f32 :=
  Host.gather g T (broadcastInDim (M2 n 1) ![0] bc (wrapV bs e x))

def embV {n h z : Nat} (bs : S0.BroadcastsInDim (V1 n) (![] : Fin 0 → Fin (V1 n).rank))
    (bc : (V1 n).BroadcastsInDim (M2 n 1) (![0] : Fin 1 → Fin (M2 n 1).rank))
    (gR : GatherDims (M2 h 256) (M2 n 1) (M2 n 256)) (gZ : GatherDims (M2 z 256) (M2 n 1) (M2 n 256))
    (wz zz eh ez : BitVec 32) (idx : IVec (V1 n) 32) (row col : FVec F (M2 h 256) .f32) (zee : FVec F (M2 z 256) .f32) :
    FVec F (M2 n 256) .f32 :=
  addf
    (addf (rowsV bs bc gR eh row (floorDivV bs (constantI S0 32 wz) idx))
      (rowsV bs bc gR eh col (floorDivV bs (constantI S0 32 zz) (remV bs (constantI S0 32 wz) idx))))
    (rowsV bs bc gZ ez zee (remV bs (constantI S0 32 zz) (remV bs (constantI S0 32 wz) idx)))

end Cert.ReferenceIdeal.Hand
-- ==== Proof.Ref.Rows.lean ====
import Idealize.ShloMosaic.PureOps.ShapeOps
import Idealize.ShloMosaic.Lib.ValueIdx
import Idealize.ShloMosaic.Lib.Pipeline.Value

namespace Cert.ReferenceIdeal.Hand

open Idealize.ShloMosaic ValueIdx

section Gather

variable {α : Type} {H C n w : Nat} (d : GatherDims (⟨2, ![H, C]⟩ : Shape) (⟨2, ![n, 1]⟩ : Shape) (⟨2, ![n, C]⟩ : Shape))

theorem siIdx_rows (hoff : d.offsetDims = [1]) (hsim : d.startIndexMap = [0]) (hivd : d.indexVectorDim = 1)
    (p : Fin n) (f : Fin C) (c : Fin d.startIndexMap.length) :
    d.siIdx (ix2 p f) c = ix2 p (0 : Fin 1) := by
  funext b
  unfold GatherDims.siIdx
  match b with
  | ⟨0, _⟩ =>
    rw [dif_neg (by rw [hivd]; simp)]
    unfold GatherDims.siCoord
    apply Fin.ext
    simp only [Fin.val_cast]
    have key : ∀ X : Fin 2, X ∈ d.batchDims → ((ix2 p f : (⟨2, ![n, C]⟩ : Shape).Idx) X).val = p.val := by
      intro X hX
      have hne : X ∉ d.offsetDims := by
        have := (List.mem_filter.1 hX).2
        simpa using this
      rw [hoff] at hne
      have h0 : X = 0 := (by decide : ∀ X : Fin 2, X ∉ [(1 : Fin 2)] → X = 0) X hne
      subst h0
      rfl
    exact key _ (List.getElem_mem _)
  | ⟨1, _⟩ =>
    rw [dif_pos (by rw [hivd])]
    apply Fin.ext
    have hl : d.startIndexMap.length = 1 := by rw [hsim]; rfl
    have := c.isLt
    show c.val = 0
    omega

-- A gather of whole rows reads, at (p, f), the operand's row at the p-th start index.
theorem gather_rows_apply (hoff : d.offsetDims = [1]) (hcoll : d.collapsedSliceDims = [0]) (hob : d.operandBatchingDims = [])
    (hsim : d.startIndexMap = [0]) (hivd : d.indexVectorDim = 1)
    (x : (⟨2, ![H, C]⟩ : Shape).Idx → α) (idx : IVec (⟨2, ![n, 1]⟩ : Shape) w) (p : Fin n) (f : Fin C) (r : Fin H)
    (hr : (idx (ix2 p (0 : Fin 1))).toInt.toNat = r.val) :
    Host.gather d x idx (ix2 p f) = x (ix2 r f) := by
  unfold Host.gather
  have hb : ∀ a : Fin 2, a ∉ d.operandBatchingDims := fun a => by rw [hob]; exact List.not_mem_nil
  have h0 : (d.operandIdx (ix2 p f) idx (0 : Fin 2)).val = r.val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    rw [siIdx_rows d hoff hsim hivd, hr, hsl]
    exact Nat.min_eq_left (Nat.le_sub_one_of_lt r.isLt)

  have h1 : (d.operandIdx (ix2 p f) idx (1 : Fin 2)).val = f.val := by
    have hnm : (1 : Fin 2) ∉ d.startIndexMap := by rw [hsim]; simp
    have hk : (1 : Fin 2) ∈ d.sKept := by rw [GatherDims.mem_sKept, hcoll, hob]; simp
    simp only [GatherDims.operandIdx, GatherDims.batchCoord_eq_zero _ _ _ (hb 1), GatherDims.start, dif_neg hnm,
      Nat.zero_add, Nat.add_zero]
    unfold GatherDims.offCoord
    rw [dif_pos hk]
    exact congrArg (fun X : Fin 2 => ((ix2 p f : (⟨2, ![n, C]⟩ : Shape).Idx) X).val)
      ((List.getElem_of_eq hoff _).trans (List.getElem_singleton _))
  exact congrArg x (funext fun a => Fin.ext (match a with | ⟨0, _⟩ => h0 | ⟨1, _⟩ => h1))

end Gather

theorem column_apply {α : Type} {n : Nat} (bc : (⟨1, ![n]⟩ : Shape).BroadcastsInDim ⟨2, ![n, 1]⟩ (![0] : Fin 1 → Fin 2))
    (v : (⟨1, ![n]⟩ : Shape).Idx → α) (p : Fin n) :
    broadcastInDim ⟨2, ![n, 1]⟩ ![0] bc v (ix2 p (0 : Fin 1)) = v (ix1 p) := by
  refine broadcastInDim_apply _ bc v _ (ix1 p) fun a => ?_
  match a with
  | ⟨0, _⟩ =>
    show p.val = if n = 1 then 0 else p.val
    have := p.isLt
    split <;> omega

end Cert.ReferenceIdeal.Hand
-- ==== Proof.Ref.LevelApply.lean ====
import proofs.«426295_j69604239999073_3_alg».proof.Proof.Ref.Fns
import proofs.«426295_j69604239999073_3_alg».proof.Proof.Ref.Rows
import proofs.«426295_j69604239999073_3_alg».proof.Proof.IntDecode
import Idealize.ShloMosaic.PureOps.Ideal

namespace Cert.ReferenceIdeal.Hand

open Idealize.ShloMosaic ValueIdx Cert.IntDecode

variable {F : FTy → Type} [FloatOps F]

section Rows

variable {n h : Nat} (bs : S0.BroadcastsInDim (V1 n) (![] : Fin 0 → Fin (V1 n).rank))
  (bc : (V1 n).BroadcastsInDim (M2 n 1) (![0] : Fin 1 → Fin (M2 n 1).rank))
  (g : GatherDims (M2 h 256) (M2 n 1) (M2 n 256))

-- A non-negative index wraps to itself, so the gather reads the table's row x[p].
theorem rowsV_apply (hoff : g.offsetDims = [1]) (hcoll : g.collapsedSliceDims = [0]) (hob : g.operandBatchingDims = [])
    (hsim : g.startIndexMap = [0]) (hivd : g.indexVectorDim = 1)
    (e : BitVec 32) (T : FVec F (M2 h 256) .f32) (x : IVec (V1 n) 32) (p : Fin n) (f : Fin 256) (r : Fin h)
    (hx : (x (ix1 p)).toNat < 2 ^ 31) (hr : (x (ix1 p)).toNat = r.val) :
    rowsV bs bc g e T x (ix2 p f) = T (ix2 r f) := by
  unfold rowsV
  refine gather_rows_apply g hoff hcoll hob hsim hivd T _ p f r ?_
  rw [column_apply]
  show (wrapW e (x (ix1 p))).toInt.toNat = r.val
  rw [wrapW_eq e hx, BitVec.toInt_eq_toNat_of_lt (by omega), Int.toNat_natCast, hr]

end Rows

end Cert.ReferenceIdeal.Hand
-- ==== Proof.Ref.Carry.lean ====
import proofs.«426295_j69604239999073_3_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- Operations that each write one buffer, of index in [lo, hi], leave a buffer of index outside that range as it was.
theorem kept_of_range {lo hi : Nat} {l : List (HloOp τ sig (Elt F))}
    (hl : l.Forall fun op => ∃ y : Ref sig .tc, op.writes = {Proc.devRef .tc y} ∧ lo ≤ y.idx.val ∧ y.idx.val ≤ hi)
    {r : Ref sig .tc} (hr : r.idx.val < lo ∨ hi < r.idx.val) (V : Valuation τ sig (Elt F)) :
    after l V (Proc.devRef .tc r) = V (Proc.devRef .tc r) :=
  after_of_forall_not_mem l V fun op hop => by
    obtain ⟨y, hw, h1, h2⟩ := List.forall_iff_forall_mem.mp hl op hop
    rw [hw, Finset.mem_singleton]
    intro e
    have e' : r = y := Proc.devRef_injective _ e
    subst e'
    omega

end Cert.ReferenceIdeal.Hand

end
-- ==== Proof.Ref.StageGen.lean ====
import proofs.«426295_j69604239999073_3_alg».proof.Proof.RefRun
import proofs.«426295_j69604239999073_3_alg».proof.Proof.LibReadStretch
import proofs.«426295_j69604239999073_3_alg».proof.Proof.Ref.Fns
import proofs.«426295_j69604239999073_3_alg».proof.Proof.Ref.Carry

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- Every operation of the block writes one buffer, of index between lo and hi.
abbrev BlockWrites (lo hi : Nat) (l : List (HloOp τ sig (Elt F))) : Prop :=
  l.Forall fun op => ∃ y : Ref sig .tc, op.writes = {Proc.devRef .tc y} ∧ lo ≤ y.idx.val ∧ y.idx.val ≤ hi

-- What a buffer holds, at the type of its tensor value.
def valAt {T : BufTy} (V : Valuation τ sig (Elt F)) (x : TRef sig T) : T.Contents (Elt F) :=
  x.ofBuf (V (Proc.devRef .tc x.ref))

-- A buffer of index below a block's range holds after the block what it held before.
theorem valAt_kept {lo hi : Nat} {l : List (HloOp τ sig (Elt F))} (hl : BlockWrites lo hi l) {T : BufTy} (x : TRef sig T)
    (hx : x.ref.idx.val < lo) (V : Valuation τ sig (Elt F)) : valAt (after l V) x = valAt V x :=
  congrArg x.ofBuf (kept_of_range hl (.inl hx) V)

theorem eq_toBuf_of_valAt {T : BufTy} (x : TRef sig T) {V : Valuation τ sig (Elt F)} {v : T.Contents (Elt F)}
    (h : valAt V x = v) : V (Proc.devRef .tc x.ref) = x.toBuf v := by
  obtain ⟨r, rfl, _, _⟩ := x
  exact h

-- Five blocks in order make q = i div wz, m = i mod wz, c = m div zz, k = m mod zz and o = row[q] + col[c] + zee[k]; no block writes what a later one still reads.
theorem stage_of_blocks {n h z : Nat} {bs bc gR gZ wz zz eh ez}
    (i : TRef sig ⟨V1 n, .i32⟩) (row col : TRef sig ⟨M2 h 256, .f32⟩) (zee : TRef sig ⟨M2 z 256, .f32⟩)
    (q m c k : TRef sig ⟨V1 n, .i32⟩) (o : TRef sig ⟨M2 n 256, .f32⟩)
    {A B C D E : List (HloOp τ sig (Elt F))} (a a' b b' c₀ c' d d' : Nat)
    (wA : BlockWrites a a' A) (wB : BlockWrites b b' B) (wC : BlockWrites c₀ c' C) (wD : BlockWrites d d' D)
    (hlt : i.ref.idx.val < a ∧ row.ref.idx.val < a ∧ col.ref.idx.val < a ∧ zee.ref.idx.val < a ∧ a ≤ b ∧ q.ref.idx.val < b
      ∧ b ≤ c₀ ∧ m.ref.idx.val < c₀ ∧ c₀ ≤ d ∧ c.ref.idx.val < d)
    (rA : ∀ V, valAt (after A V) q = floorDivV bs (constantI S0 32 wz) (valAt V i))
    (rB : ∀ V, valAt (after B V) m = remV bs (constantI S0 32 wz) (valAt V i))
    (rC : ∀ V, valAt (after C V) c = floorDivV bs (constantI S0 32 zz) (valAt V m))
    (rD : ∀ V, valAt (after D V) k = remV bs (constantI S0 32 zz) (valAt V m))
    (rE : ∀ V, valAt (after E V) o = addf (addf (rowsV bs bc gR eh (valAt V row) (valAt V q))
      (rowsV bs bc gR eh (valAt V col) (valAt V c))) (rowsV bs bc gZ ez (valAt V zee) (valAt V k)))
    (W : Valuation τ sig (Elt F)) :
    after (A ++ B ++ C ++ D ++ E) W (Proc.devRef .tc o.ref)
      = o.toBuf (embV bs bc gR gZ wz zz eh ez (valAt W i) (valAt W row) (valAt W col) (valAt W zee)) := by
  obtain ⟨hi, hr, hc, hz, hab, hq, hbc, hm, hcd, hcc⟩ := hlt
  have k4 {T : BufTy} (x : TRef sig T) (hx : x.ref.idx.val < a) :
      valAt (after D (after C (after B (after A W)))) x = valAt W x := by
    rw [valAt_kept wD x (by omega), valAt_kept wC x (by omega), valAt_kept wB x (by omega), valAt_kept wA x hx]
  refine eq_toBuf_of_valAt o ?_
  rw [after_append, after_append, after_append, after_append, rE, k4 row hr, k4 col hc, k4 zee hz,
    valAt_kept wD q (by omega), valAt_kept wC q (by omega), valAt_kept wB q hq, rA,
    valAt_kept wD c hcc, rC, rB, valAt_kept wA i hi,
    rD, valAt_kept wC m hm, rB, valAt_kept wA i hi]
  rfl

end Cert.ReferenceIdeal.Hand

end
-- ==== Proof.Ref.Stage1.lean ====
import proofs.«426295_j69604239999073_3_alg».proof.Proof.Ref.StageGen

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem opsL1_segs : (opsL1 : List (HloOp τ sig (Elt F))) = seg1A ++ seg1B ++ seg1C ++ seg1D ++ seg1E := by chain_rfl

theorem stage1 (W : Valuation τ sig (Elt F)) :
    after (opsL1 (F := F)) W main_v26 = embV bcast_S_S8000 bcast_S8000_S8000x1_0 gather_S50x256_S8000x1_S8000x256_1_0_n_n_0_1_1256 gather_S4x256_S8000x1_S8000x256_1_0_n_n_0_1_1256
      200#32 4#32 50#32 4#32 (W main_arg0) (W main_arg3) (W main_arg4) (W main_arg5) := by
  rw [opsL1_segs]
  refine stage_of_blocks (.of main_arg0) (.of main_arg3) (.of main_arg4) (.of main_arg5)
    (.of main_v0) (.of main_v1) (.of main_v2) (.of main_v3) (.of main_v26) 14 31 32 53 54 71 72 93 ?_ ?_ ?_ ?_ (by decide) ?_ ?_ ?_ ?_ ?_ W
  iterate 4 (each_op <;> exact ⟨_, rfl, by decide, by decide⟩)
  all_goals (intro V; unfold valAt; read_stretch; rfl)

end Cert.ReferenceIdeal.Hand
-- ==== Proof.Ref.Stage2.lean ====
import proofs.«426295_j69604239999073_3_alg».proof.Proof.Ref.StageGen

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem opsL2_segs : (opsL2 : List (HloOp τ sig (Elt F))) = seg2A ++ seg2B ++ seg2C ++ seg2D ++ seg2E := by chain_rfl

theorem stage2 (W : Valuation τ sig (Elt F)) :
    after (opsL2 (F := F)) W main_v53 = embV bcast_S_S60000 bcast_S60000_S60000x1_0 gather_S100x256_S60000x1_S60000x256_1_0_n_n_0_1_1256 gather_S8x256_S60000x1_S60000x256_1_0_n_n_0_1_1256
      800#32 8#32 100#32 8#32 (W main_arg1) (W main_arg6) (W main_arg7) (W main_arg8) := by
  rw [opsL2_segs]
  refine stage_of_blocks (.of main_arg1) (.of main_arg6) (.of main_arg7) (.of main_arg8)
    (.of main_v27) (.of main_v28) (.of main_v29) (.of main_v30) (.of main_v53) 123 140 141 162 163 180 181 202 ?_ ?_ ?_ ?_ (by decide) ?_ ?_ ?_ ?_ ?_ W
  iterate 4 (each_op <;> exact ⟨_, rfl, by decide, by decide⟩)
  all_goals (intro V; unfold valAt; read_stretch; rfl)

end Cert.ReferenceIdeal.Hand
-- ==== Proof.Ref.Stage3.lean ====
import proofs.«426295_j69604239999073_3_alg».proof.Proof.Ref.StageGen

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem opsL3_segs : (opsL3 : List (HloOp τ sig (Elt F))) = seg3A ++ seg3B ++ seg3C ++ seg3D ++ seg3E := by chain_rfl

theorem stage3 (W : Valuation τ sig (Elt F)) :
    after (opsL3 (F := F)) W main_v80 = embV bcast_S_S480000 bcast_S480000_S480000x1_0 gather_S200x256_S480000x1_S480000x256_1_0_n_n_0_1_1256 gather_S16x256_S480000x1_S480000x256_1_0_n_n_0_1_1256
      3200#32 16#32 200#32 16#32 (W main_arg2) (W main_arg9) (W main_arg10) (W main_arg11) := by
  rw [opsL3_segs]
  refine stage_of_blocks (.of main_arg2) (.of main_arg9) (.of main_arg10) (.of main_arg11)
    (.of main_v54) (.of main_v55) (.of main_v56) (.of main_v57) (.of main_v80) 232 249 250 271 272 289 290 311 ?_ ?_ ?_ ?_ (by decide) ?_ ?_ ?_ ?_ ?_ W
  iterate 4 (each_op <;> exact ⟨_, rfl, by decide, by decide⟩)
  all_goals (intro V; unfold valAt; read_stretch; rfl)

end Cert.ReferenceIdeal.Hand
-- ==== Proof.Ref.Tail.lean ====
import proofs.«426295_j69604239999073_3_alg».proof.Proof.RefOps
import proofs.«426295_j69604239999073_3_alg».proof.Proof.Spec
import proofs.«426295_j69604239999073_3_alg».proof.Proof.LibReadStretch
import proofs.«426295_j69604239999073_3_alg».proof.Proof.Ref.Rows
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open scoped BigOperators

def scal (b : BitVec 32) : FVec Ideal S548000x1 .f32 :=
  broadcastInDim S548000x1 ![] bcast_S_S548000x1 (constant (F := Ideal) S_ .f32 b)

-- The mean of each row, as a column.
def meanV (Y : FVec Ideal S548000x256 .f32) : FVec Ideal S548000x1 .f32 :=
  Host.divf (F := Ideal)
    (broadcastInDim S548000x1 ![0] bcast_S548000_S548000x1_0
      (Host.reduceAdd (F := Ideal) Y (constant (F := Ideal) S_ .f32 0x00000000#32) reducesTo_S548000x256_S548000_d1 h_S_))
    (scal 0x43800000#32)

def lanes (v : FVec Ideal S548000x1 .f32) : FVec Ideal S548000x256 .f32 :=
  broadcastInDim S548000x256 ![0, 1] bcast_S548000x1_S548000x256_0_1 v

def rowsOf (v : FVec Ideal S256 .f32) : FVec Ideal S548000x256 .f32 :=
  broadcastInDim S548000x256 ![0, 1] bcast_S1x256_S548000x256_0_1 (broadcastInDim S1x256 ![1] bcast_S256_S1x256_1 v)

-- Row normalisation: centre, scale by the reciprocal root of variance plus eps, then scale by γ and shift by β.
def refTail (x : FVec Ideal S548000x256 .f32) (γ β : FVec Ideal S256 .f32) : FVec Ideal S548000x256 .f32 :=
  have c : FVec Ideal S548000x256 .f32 := subf x (lanes (meanV x))
  addf
    (mulf
      (mulf c (lanes (Host.rsqrt (F := Ideal) (addf (meanV (mulf c c)) (scal 0x3727C5AC#32)))))
      (rowsOf γ))
    (rowsOf β)

theorem lanes_apply (v : FVec Ideal S548000x1 .f32) (n : Fin 548000) (f : Fin 256) :
    lanes v (ix2 n f) = v (ix2 n (0 : Fin 1)) :=
  broadcastInDim_apply _ _ v (ix2 n f) (ix2 n (0 : Fin 1)) fun a =>
    match a with
    | ⟨0, _⟩ => (if_neg (by decide : ¬(548000 : ℕ) = 1)).symm
    | ⟨1, _⟩ => (if_pos rfl).symm

theorem rowsOf_apply (v : FVec Ideal S256 .f32) (n : Fin 548000) (f : Fin 256) : rowsOf v (ix2 n f) = v (ix1 f) :=
  Eq.trans
    (broadcastInDim_apply _ _ _ (ix2 n f) (ix2 (0 : Fin 1) f) fun a =>
      match a with
      | ⟨0, _⟩ => (if_pos rfl).symm
      | ⟨1, _⟩ => (if_neg (by decide : ¬(256 : ℕ) = 1)).symm)
    (broadcastInDim_apply _ _ v (ix2 (0 : Fin 1) f) (ix1 f) fun a =>
      match a with
      | ⟨0, _⟩ => (if_neg (by decide : ¬(256 : ℕ) = 1)).symm)

theorem scal_apply (b : BitVec 32) (j : S548000x1.Idx) : scal b j = Ideal.ofBits .f32 b :=
  broadcastInDim_apply _ _ (constant (F := Ideal) S_ .f32 b) j (fun a => a.elim0) fun a => a.elim0

theorem hostDivf_apply {s : Shape} (a b : FVec Ideal s .f32) (i : s.Idx) : Host.divf (F := Ideal) a b i = Ideal.div (a i) (b i) := rfl

theorem hostRsqrt_apply {s : Shape} (a : FVec Ideal s .f32) (i : s.Idx) : Host.rsqrt (F := Ideal) a i = Ideal.rsqrt (a i) := rfl

theorem hostRowSum_apply (Y : FVec Ideal S548000x256 .f32) (n : Fin 548000) :
    Host.reduceAdd (F := Ideal) Y (constant (F := Ideal) S_ .f32 0x00000000#32) reducesTo_S548000x256_S548000_d1 h_S_ (ix1 n)
      = ∑ j : Fin 256, Y (ix2 n j) := by
  show Ideal.hostReduceAdd reducesTo_S548000x256_S548000_d1 Y (Ideal.ofBits .f32 0x00000000#32) (ix1 n) = _
  rw [Ideal.hostReduceAdd_single reducesTo_S548000x256_S548000_d1 (by decide : S548000x256.Reduces [1] S548000),
    Ideal.ofBits_zero_f32, zero_add]
  exact Finset.sum_congr rfl fun j _ => congrArg Y (eq_ix2 _)

theorem meanV_apply (Y : FVec Ideal S548000x256 .f32) (n : Fin 548000) :
    meanV Y (ix2 n (0 : Fin 1)) = Cert.Spec.mean fun j => Y (ix2 n j) := by
  unfold meanV
  rw [hostDivf_apply, scal_apply, column_apply, hostRowSum_apply]
  rfl

theorem mean_sq_congr (Y : FVec Ideal S548000x256 .f32) (g : Fin 256 → EReal) (n : Fin 548000) (h : ∀ j, Y (ix2 n j) = g j) :
    Cert.Spec.mean (fun j => mulf Y Y (ix2 n j)) = Cert.Spec.mean fun j => g j * g j :=
  congrArg _ (funext fun j => by rw [mulf_apply, h j])

theorem refTail_apply (x : FVec Ideal S548000x256 .f32) (γ β : FVec Ideal S256 .f32) (n : Fin 548000) (f : Fin 256) :
    refTail x γ β (ix2 n f)
      = Cert.Spec.rowNorm (fun j => x (ix2 n j)) (fun j => γ (ix1 j)) (fun j => β (ix1 j)) f := by
  unfold refTail
  rw [addf_apply, mulf_apply, mulf_apply, subf_apply, rowsOf_apply, rowsOf_apply, lanes_apply, lanes_apply, meanV_apply,
    hostRsqrt_apply, addf_apply, meanV_apply, scal_apply]
  rw [mean_sq_congr _ (fun j => x (ix2 n j) - Cert.Spec.mean fun j => x (ix2 n j)) n
    (fun j => by rw [subf_apply, lanes_apply, meanV_apply])]
  rfl

section Concat
variable {α : Type} (A : S8000x256.Idx → α) (B : S60000x256.Idx → α) (C : S480000x256.Idx → α)

theorem concat_apply1 (n : Fin 548000) (f : Fin 256) (h : n.val < 8000) :
    concatenate S548000x256 0 [⟨S8000x256, A⟩, ⟨S60000x256, B⟩, ⟨S480000x256, C⟩]
        concatenates_S8000x256_S60000x256_S480000x256_S548000x256_d0 (ix2 n f)
      = A (ix2 ⟨n.val, h⟩ f) :=
  concatenate_apply_piece 0 _ _ (ix2 n f) 0 (by simp) S8000x256 A rfl rfl 0 rfl (ix2 ⟨n.val, h⟩ f)
    (fun b hb => match b with | ⟨0, _⟩ => absurd rfl hb | ⟨1, _⟩ => rfl) (Nat.zero_add _)

theorem concat_apply2 (n : Fin 548000) (f : Fin 256) (h1 : 8000 ≤ n.val) (h2 : n.val < 68000) :
    concatenate S548000x256 0 [⟨S8000x256, A⟩, ⟨S60000x256, B⟩, ⟨S480000x256, C⟩]
        concatenates_S8000x256_S60000x256_S480000x256_S548000x256_d0 (ix2 n f)
      = B (ix2 ⟨n.val - 8000, by omega⟩ f) :=
  concatenate_apply_piece 0 _ _ (ix2 n f) 1 (by simp) S60000x256 B rfl rfl 8000 rfl (ix2 ⟨n.val - 8000, by omega⟩ f)
    (fun b hb => match b with | ⟨0, _⟩ => absurd rfl hb | ⟨1, _⟩ => rfl) (Nat.add_sub_cancel' h1)

theorem concat_apply3 (n : Fin 548000) (f : Fin 256) (h : 68000 ≤ n.val) :
    concatenate S548000x256 0 [⟨S8000x256, A⟩, ⟨S60000x256, B⟩, ⟨S480000x256, C⟩]
        concatenates_S8000x256_S60000x256_S480000x256_S548000x256_d0 (ix2 n f)
      = C (ix2 ⟨n.val - 68000, by have := n.isLt; omega⟩ f) :=
  concatenate_apply_piece 0 _ _ (ix2 n f) 2 (by simp) S480000x256 C rfl rfl 68000 rfl
    (ix2 ⟨n.val - 68000, by have := n.isLt; omega⟩ f)
    (fun b hb => match b with | ⟨0, _⟩ => absurd rfl hb | ⟨1, _⟩ => rfl) (Nat.add_sub_cancel' h)

end Concat

theorem tail_result (W : Valuation τ sig (Elt Ideal)) :
    StableHlo.after (opsTail (F := Ideal)) W (Proc.devRef .tc main_v105)
      = refTail (concatenate S548000x256 0 [⟨S8000x256, W (Proc.devRef .tc main_v26)⟩, ⟨S60000x256, W (Proc.devRef .tc main_v53)⟩,
            ⟨S480000x256, W (Proc.devRef .tc main_v80)⟩] concatenates_S8000x256_S60000x256_S480000x256_S548000x256_d0)
          (W (Proc.devRef .tc main_arg12)) (W (Proc.devRef .tc main_arg13)) := by
  simp only [opsTail, opsTailA, opsTailB, List.cons_append, List.nil_append]
  read_stretch
  rfl

end Cert.ReferenceIdeal.Hand

end
-- ==== Proof.LibCarry.lean ====
import Idealize.ShloMosaic.Lib.StableHlo.Run

open Idealize.ShloMosaic

macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.RefValue.lean ====
import proofs.«426295_j69604239999073_3_alg».proof.Proof.RefRun
import proofs.«426295_j69604239999073_3_alg».proof.Proof.Ref.LevelApply
import proofs.«426295_j69604239999073_3_alg».proof.Proof.Ref.Stage1
import proofs.«426295_j69604239999073_3_alg».proof.Proof.Ref.Stage2
import proofs.«426295_j69604239999073_3_alg».proof.Proof.Ref.Stage3
import proofs.«426295_j69604239999073_3_alg».proof.Proof.Ref.Tail
import proofs.«426295_j69604239999073_3_alg».proof.Proof.Spec
import proofs.«426295_j69604239999073_3_alg».proof.Proof.LibCarry

set_option maxHeartbeats 4000000

noncomputable section

namespace Cert.ReferenceIdeal.Hand

open Cert.ReferenceIdeal Cert.ReferenceIdeal.Gen Idealize.ShloMosaic Idealize.ShloMosaic.TcCoe Idealize.SL.Sem Idealize.ShloMosaic.StableHlo ValueIdx Cert.IntDecode

theorem idxAt_fin {n : Nat} (I : (⟨1, ![n]⟩ : Shape).Idx → BitVec 32) (p : Fin n) :
    Cert.Spec.idxAt I p.val = (I (ix1 p)).toNat := dif_pos p.isLt

theorem tbl_fin {a b : Nat} (A : (⟨2, ![a, b]⟩ : Shape).Idx → EReal) (r : Fin a) (f : Fin b) :
    Cert.Spec.tbl A r.val f.val = A (ix2 r f) := dif_pos ⟨r.isLt, f.isLt⟩

theorem vecAt_fin {n : Nat} (v : (⟨1, ![n]⟩ : Shape).Idx → EReal) (p : Fin n) :
    Cert.Spec.vecAt v p.val = v (ix1 p) := dif_pos p.isLt

-- One level at flat index i: the rows i / (h z), i % (h z) / z and i % z of its three tables, summed.
theorem emb_apply {n h z : Nat} {bs : S0.BroadcastsInDim (V1 n) (![] : Fin 0 → Fin (V1 n).rank)}
    {bc : (V1 n).BroadcastsInDim (M2 n 1) (![0] : Fin 1 → Fin (M2 n 1).rank)}
    {gR : GatherDims (M2 h 256) (M2 n 1) (M2 n 256)} {gZ : GatherDims (M2 z 256) (M2 n 1) (M2 n 256)}
    {wz zz eh ez : BitVec 32} {idx : IVec (V1 n) 32} {row col : FVec Ideal (M2 h 256) .f32} {zee : FVec Ideal (M2 z 256) .f32}
    (p : Fin n) (f : Fin 256)
    (hRoff : gR.offsetDims = [1]) (hRcoll : gR.collapsedSliceDims = [0]) (hRob : gR.operandBatchingDims = [])
    (hRsim : gR.startIndexMap = [0]) (hRivd : gR.indexVectorDim = 1)
    (hZoff : gZ.offsetDims = [1]) (hZcoll : gZ.collapsedSliceDims = [0]) (hZob : gZ.operandBatchingDims = [])
    (hZsim : gZ.startIndexMap = [0]) (hZivd : gZ.indexVectorDim = 1)
    (hwz : wz.toNat = h * z) (hzz : zz.toNat = z) (hh : 0 < h) (hz : 0 < z) (hlt : h * (h * z) < 2 ^ 31)
    (hi : ∀ j, (idx j).toNat < h * (h * z)) :
    embV (F := Ideal) bs bc gR gZ wz zz eh ez idx row col zee (ix2 p f)
      = Cert.Spec.emb h z (Cert.Spec.tbl row) (Cert.Spec.tbl col) (Cert.Spec.tbl zee) (Cert.Spec.idxAt idx p.val) f.val := by
  have hi := hi (ix1 p)
  have h1 : h * z ≤ h * (h * z) := Nat.le_mul_of_pos_left _ hh
  have h2 : z ≤ h * z := Nat.le_mul_of_pos_left _ hh
  have h3 : 0 < h * z := Nat.mul_pos hh hz
  have hx : (idx (ix1 p)).toNat < 2 ^ 31 := by omega
  have hMlt : (idx (ix1 p)).toNat % (h * z) < h * z := Nat.mod_lt _ h3
  have hM : (remW wz (idx (ix1 p))).toNat = (idx (ix1 p)).toNat % (h * z) := by
    rw [remW_toNat hx (by omega) (by omega), hwz]
  have hRv : (floorDivV bs (constantI S0 32 wz) idx (ix1 p)).toNat = (idx (ix1 p)).toNat / (h * z) := by
    show (fdivW wz (idx (ix1 p))).toNat = _
    rw [fdivW_toNat hx (by omega) (by omega), hwz]
  have hCv : (floorDivV bs (constantI S0 32 zz) (remV bs (constantI S0 32 wz) idx) (ix1 p)).toNat
      = (idx (ix1 p)).toNat % (h * z) / z := by
    show (fdivW zz (remW wz (idx (ix1 p)))).toNat = _
    rw [fdivW_toNat (by omega) (by omega) (by omega), hM, hzz]
  have hKv : (remV bs (constantI S0 32 zz) (remV bs (constantI S0 32 wz) idx) (ix1 p)).toNat = (idx (ix1 p)).toNat % z := by
    show (remW zz (remW wz (idx (ix1 p)))).toNat = _
    rw [remW_toNat (by omega) (by omega) (by omega), hM, hzz, Nat.mod_mul_left_mod]
  have hr : (idx (ix1 p)).toNat / (h * z) < h := Nat.div_lt_of_lt_mul (by rw [Nat.mul_comm (h * z) h]; exact hi)
  have hc : (idx (ix1 p)).toNat % (h * z) / z < h := Nat.div_lt_of_lt_mul (by rw [Nat.mul_comm z h]; exact hMlt)
  have hk : (idx (ix1 p)).toNat % z < z := Nat.mod_lt _ hz
  rw [idxAt_fin]
  unfold Cert.Spec.emb embV
  rw [addf_apply, addf_apply,
    rowsV_apply bs bc gR hRoff hRcoll hRob hRsim hRivd eh row _ p f ⟨_, hr⟩
      (by rw [hRv]; exact lt_of_le_of_lt (Nat.div_le_self _ _) hx) hRv,
    rowsV_apply bs bc gR hRoff hRcoll hRob hRsim hRivd eh col _ p f ⟨_, hc⟩
      (by rw [hCv]; exact lt_of_le_of_lt (Nat.div_le_self _ _) (lt_of_le_of_lt (Nat.mod_le _ _) hx)) hCv,
    rowsV_apply bs bc gZ hZoff hZcoll hZob hZsim hZivd ez zee _ p f ⟨_, hk⟩
      (by rw [hKv]; exact lt_of_le_of_lt (Nat.mod_le _ _) hx) hKv,
    ← tbl_fin row ⟨_, hr⟩ f, ← tbl_fin col ⟨_, hc⟩ f, ← tbl_fin zee ⟨_, hk⟩ f]

theorem kept_late {L : List (HloOp τ sig (Elt Ideal))}
    (hL : L.Forall fun op => ∃ y : Ref sig .tc, op.writes = {Proc.devRef .tc y} ∧ 14 ≤ y.idx.val)
    {r : Ref sig .tc} (hr : r.idx.val < 14) (V : Valuation τ sig (Elt Ideal)) :
    after L V (Proc.devRef .tc r) = V (Proc.devRef .tc r) :=
  after_of_forall_not_mem L V fun op hop => not_mem_writes_of_late hr (List.forall_iff_forall_mem.mp hL op hop)

theorem opsL2_late : (opsL2 : List (HloOp τ sig (Elt Ideal))).Forall fun op =>
    ∃ y : Ref sig .tc, op.writes = {Proc.devRef .tc y} ∧ 14 ≤ y.idx.val := forall_append opsL2a_late opsL2b_late

theorem keep26_L2 (V : Valuation τ sig (Elt Ideal)) : after (opsL2 (F := Ideal)) V main_v26 = V main_v26 := by
  show after (opsL2a ++ opsL2b) V main_v26 = _
  rw [after_append, show after opsL2b (after opsL2a V) main_v26 = after opsL2a V main_v26 by keep_host opsL2b]
  keep_host opsL2a

theorem keep26_L3 (V : Valuation τ sig (Elt Ideal)) : after (opsL3 (F := Ideal)) V main_v26 = V main_v26 := by keep_host opsL3
theorem keep53_L3 (V : Valuation τ sig (Elt Ideal)) : after (opsL3 (F := Ideal)) V main_v53 = V main_v53 := by keep_host opsL3

theorem ref_apply (W : Valuation τ sig (Elt Ideal)) (h1 : ∀ j, (W main_arg0 j).toNat < 10000)
    (h2 : ∀ j, (W main_arg1 j).toNat < 80000) (h3 : ∀ j, (W main_arg2 j).toNat < 640000) (n : Fin 548000) (f : Fin 256) :
    (StableHlo.after (ops (F := Ideal)) W main_v105) (ValueIdx.ix2 n f)
      = Cert.Spec.out (Cert.Spec.idxAt (W main_arg0)) (Cert.Spec.idxAt (W main_arg1)) (Cert.Spec.idxAt (W main_arg2))
          (Cert.Spec.tbl (W main_arg3)) (Cert.Spec.tbl (W main_arg4)) (Cert.Spec.tbl (W main_arg5))
          (Cert.Spec.tbl (W main_arg6)) (Cert.Spec.tbl (W main_arg7)) (Cert.Spec.tbl (W main_arg8))
          (Cert.Spec.tbl (W main_arg9)) (Cert.Spec.tbl (W main_arg10)) (Cert.Spec.tbl (W main_arg11))
          (Cert.Spec.vecAt (W main_arg12)) (Cert.Spec.vecAt (W main_arg13)) n.val f := by
  show after (opsL1 ++ opsL2 ++ opsL3 ++ opsTail) W main_v105 (ix2 n f) = _
  rw [after_append (opsL1 ++ opsL2 ++ opsL3) opsTail, after_append (opsL1 ++ opsL2) opsL3, after_append opsL1 opsL2, tail_result,
    refTail_apply]
  unfold Cert.Spec.out
  congr 1
  · funext j
    unfold Cert.Spec.pos
    by_cases hA : n.val < 8000
    · rw [concat_apply1 _ _ _ n j hA, if_pos hA, keep26_L3, keep26_L2, stage1]
      exact emb_apply ⟨n.val, hA⟩ j rfl rfl rfl rfl rfl rfl rfl rfl rfl rfl rfl rfl (by decide) (by decide) (by decide) h1
    · by_cases hB : n.val < 68000
      · rw [concat_apply2 _ _ _ n j (by omega) hB, if_neg hA, if_pos hB, keep53_L3, stage2]
        simp (disch := decide) only [kept_late opsL1_late]
        exact emb_apply ⟨n.val - 8000, by omega⟩ j rfl rfl rfl rfl rfl rfl rfl rfl rfl rfl rfl rfl (by decide) (by decide) (by decide) h2
      · rw [concat_apply3 _ _ _ n j (by omega), if_neg hA, if_neg hB, stage3]
        simp (disch := decide) only [kept_late opsL2_late, kept_late opsL1_late]
        exact emb_apply ⟨n.val - 68000, by have := n.isLt; omega⟩ j rfl rfl rfl rfl rfl rfl rfl rfl rfl rfl rfl rfl (by decide) (by decide) (by decide) h3
  all_goals
    funext j
    simp (disch := decide) only [kept_late opsL3_late, kept_late opsL2_late, kept_late opsL1_late, vecAt_fin]

end Cert.ReferenceIdeal.Hand
-- ==== Proof.PreDecode.lean ====
import proofs.«426295_j69604239999073_3_alg».proof.Pre_finite_inputs
import Idealize.ShloMosaic.Lib.ReduceAll
import Idealize.ShloMosaic.Lib.ValueIdx
import Idealize.ShloMosaic.PureOps.Ideal
import Idealize.ShloMosaic.Lib.StableHlo.Predicate

noncomputable section

namespace Cert.PreDecode

open Idealize.ShloMosaic Cert.Pre_finite_inputs

variable [Cert.Pre_finite_inputs.Facts]

instance : Subsingleton S_.Idx := ⟨fun a b => funext fun d => d.elim0⟩

theorem toNat_lt (w : BitVec 32) (n : Nat) (hn : n < 2 ^ 31) (h : IntOp.andi (IntOp.cmpi .sge w (0#32)) (IntOp.cmpi .slt w (BitVec.ofNat 32 n)) = 1#1) : w.toNat < n := by
  obtain ⟨h0, h1⟩ := IntOp.andi_eq_one.1 h
  have hw := (Scalar.nonneg_iff w).1 h0
  have hb : (BitVec.ofNat 32 n).toNat = n := by rw [BitVec.toNat_ofNat]; omega
  exact hb ▸ (StableHlo.Predicate.slt_iff_toNat (by omega) (by omega)).1 h1

theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

theorem decode (a0 : IVec S8000 32) (a1 : IVec S60000 32) (a2 : IVec S480000 32)
    (a3 a4 : FVec Ideal S50x256 .f32) (a5 : FVec Ideal S4x256 .f32) (a6 a7 : FVec Ideal S100x256 .f32)
    (a8 : FVec Ideal S8x256 .f32) (a9 a10 : FVec Ideal S200x256 .f32) (a11 : FVec Ideal S16x256 .f32)
    (a12 a13 : FVec Ideal S256 .f32)
    (h : Cert.Pre_finite_inputs.fn (F := Ideal) a0 a1 a2 a3 a4 a5 a6 a7 a8 a9 a10 a11 a12 a13 = fun _ => 1#1) :
    (∀ j, (a0 j).toNat < 10000) ∧ (∀ j, (a1 j).toNat < 80000) ∧ (∀ j, (a2 j).toNat < 640000)
    ∧ (∀ j, ∃ r : ℝ, a3 j = (r : EReal)) ∧ (∀ j, ∃ r : ℝ, a4 j = (r : EReal)) ∧ (∀ j, ∃ r : ℝ, a5 j = (r : EReal))
    ∧ (∀ j, ∃ r : ℝ, a6 j = (r : EReal)) ∧ (∀ j, ∃ r : ℝ, a7 j = (r : EReal)) ∧ (∀ j, ∃ r : ℝ, a8 j = (r : EReal))
    ∧ (∀ j, ∃ r : ℝ, a9 j = (r : EReal)) ∧ (∀ j, ∃ r : ℝ, a10 j = (r : EReal)) ∧ (∀ j, ∃ r : ℝ, a11 j = (r : EReal))
    ∧ (∀ j, ∃ r : ℝ, a12 j = (r : EReal)) ∧ (∀ j, ∃ r : ℝ, a13 j = (r : EReal)) := by
  have e := congrFun h ValueIdx.ix0
  dsimp only [fn, fn_part1, fn_part2, fn_part3, fn_part4] at e
  obtain ⟨e, h2⟩ := IntOp.andi_eq_one.1 e
  obtain ⟨e, h1⟩ := IntOp.andi_eq_one.1 e
  obtain ⟨e, h0⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨h3, h4⟩ := IntOp.andi_eq_one.1 e
  exact ⟨fun j => toNat_lt _ 10000 (by decide) (Host.reduce_andi_all _ _ _ _ _ h0 j),
    fun j => toNat_lt _ 80000 (by decide) (Host.reduce_andi_all _ _ _ _ _ h1 j),
    fun j => toNat_lt _ 640000 (by decide) (Host.reduce_andi_all _ _ _ _ _ h2 j),
    fun j => real_of_abs_lt_inf _ (Host.reduce_andi_all _ _ _ _ _ h3 j),
    fun j => real_of_abs_lt_inf _ (Host.reduce_andi_all _ _ _ _ _ h4 j),
    fun j => real_of_abs_lt_inf _ (Host.reduce_andi_all _ _ _ _ _ h5 j),
    fun j => real_of_abs_lt_inf _ (Host.reduce_andi_all _ _ _ _ _ h6 j),
    fun j => real_of_abs_lt_inf _ (Host.reduce_andi_all _ _ _ _ _ h7 j),
    fun j => real_of_abs_lt_inf _ (Host.reduce_andi_all _ _ _ _ _ h8 j),
    fun j => real_of_abs_lt_inf _ (Host.reduce_andi_all _ _ _ _ _ h9 j),
    fun j => real_of_abs_lt_inf _ (Host.reduce_andi_all _ _ _ _ _ h10 j),
    fun j => real_of_abs_lt_inf _ (Host.reduce_andi_all _ _ _ _ _ h11 j),
    fun j => real_of_abs_lt_inf _ (Host.reduce_andi_all _ _ _ _ _ h12 j),
    fun j => real_of_abs_lt_inf _ (Host.reduce_andi_all _ _ _ _ _ h13 j)⟩

end Cert.PreDecode

end
-- ==== Proof.Algebraic.lean ====
import proofs.«426295_j69604239999073_3_alg».proof.Defs
import proofs.«426295_j69604239999073_3_alg».proof.Proof.Gen.KernelIdeal
import proofs.«426295_j69604239999073_3_alg».proof.Proof.Gen.ReferenceIdeal
import proofs.«426295_j69604239999073_3_alg».proof.Proof.Gen.Pre_finite_inputs
import proofs.«426295_j69604239999073_3_alg».proof.Proof.KI.Value
import proofs.«426295_j69604239999073_3_alg».proof.Proof.RefRun
import proofs.«426295_j69604239999073_3_alg».proof.Proof.RefValue
import proofs.«426295_j69604239999073_3_alg».proof.Proof.PreDecode

noncomputable section

namespace Cert.Proof

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree

  have hdec := fun c => Cert.PreDecode.decode _ _ _ _ _ _ _ _ _ _ _ _ _ _ (hpre c)

  have d0 := fun c => (hdec c).1
  have d1 := fun c => (hdec c).2.1
  have d2 := fun c => (hdec c).2.2.1
  have f3 := fun c => (hdec c).2.2.2.1
  have f4 := fun c => (hdec c).2.2.2.2.1
  have f5 := fun c => (hdec c).2.2.2.2.2.1
  have f6 := fun c => (hdec c).2.2.2.2.2.2.1
  have f7 := fun c => (hdec c).2.2.2.2.2.2.2.1
  have f8 := fun c => (hdec c).2.2.2.2.2.2.2.2.1
  have f9 := fun c => (hdec c).2.2.2.2.2.2.2.2.2.1
  have f10 := fun c => (hdec c).2.2.2.2.2.2.2.2.2.2.1
  have f11 := fun c => (hdec c).2.2.2.2.2.2.2.2.2.2.2.1
  refine ⟨fun c => Cert.KernelIdeal.Hand.Gout m c, ?_, ?_⟩
  · exact Cert.KernelIdeal.Hand.run_value m g d0 d1 d2 ⟨f3, f4, f5, f6, f7, f8, f9, f10, f11⟩
  · refine (θ_run Cert.ReferenceIdeal.defs _ _).mono (fun r h c => ?_) (Cert.ReferenceIdeal.Hand.run m' g')
    obtain ⟨e0, e1, e2, e3, e4, e5, e6, e7, e8, e9, e10, e11, e12, e13⟩ := hagree c

    have w : ∀ {r : Ref Cert.ReferenceIdeal.sig .tc} {x}, m' ((c.tc : Thread Cert.ReferenceIdeal.nD Cert.ReferenceIdeal.τ).loc r) = x →
        StableHlo.launchContents m' c (Proc.devRef .tc r) = x := fun h => h
    have hv : StableHlo.after (Cert.ReferenceIdeal.Hand.ops (F := Ideal)) (StableHlo.launchContents m' c)
        (Proc.devRef .tc Cert.ReferenceIdeal.main_v105) = Cert.KernelIdeal.Hand.Gout m c := by
      refine funext fun (i : Cert.ReferenceIdeal.S548000x256.Idx) => ?_

      have key := Cert.ReferenceIdeal.Hand.ref_apply (StableHlo.launchContents m' c)
        (by rw [w e0]; exact d0 c) (by rw [w e1]; exact d1 c) (by rw [w e2]; exact d2 c) (i 0) (i 1)

      rw [w e0, w e1, w e2, w e3, w e4, w e5, w e6, w e7, w e8, w e9, w e10, w e11, w e12, w e13] at key
      exact (congrArg (StableHlo.after (Cert.ReferenceIdeal.Hand.ops (F := Ideal)) (StableHlo.launchContents m' c)
        (Proc.devRef .tc Cert.ReferenceIdeal.main_v105)) (ValueIdx.eq_ix2 i)).trans key
    refine ⟨(h c Cert.ReferenceIdeal.main_v105).trans hv, ?_⟩
    repeat' apply And.intro
    all_goals exact (h c _).trans (Cert.ReferenceIdeal.Hand.kept_of_lt (by decide) _)

end Cert.Proof

end
-- ==== Proof.lean ====
/- For each of the 548000 cells both programs return the layer normalisation of the sum of three table rows: the row,
   column and depth embeddings of the cell at its level. The reference gathers the three rows; the kernel multiplies a row
   of zeros and ones, with ones at three distinct places, into the stacked table of 728 rows, and over the extended reals
   that product is the sum of the three rows. Cell indices inside their grids make the two index decodings agree. -/
import proofs.«426295_j69604239999073_3_alg».proof.Defs
import proofs.«426295_j69604239999073_3_alg».proof.Proof.Gen.Kernel
import proofs.«426295_j69604239999073_3_alg».proof.Proof.Gen.KernelIdeal
import proofs.«426295_j69604239999073_3_alg».proof.Proof.Gen.ReferenceIdeal
import proofs.«426295_j69604239999073_3_alg».proof.Proof.Gen.Pre_finite_inputs
import proofs.«426295_j69604239999073_3_alg».proof.Proof.KB.Frame
import proofs.«426295_j69604239999073_3_alg».proof.Proof.KI.Frame
import proofs.«426295_j69604239999073_3_alg».proof.Proof.RefRun
import proofs.«426295_j69604239999073_3_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_of m ρ (Cert.Kernel.Hand.dats m) (Cert.Kernel.Hand.A_eq m) (Cert.Kernel.Hand.run_main m ρ)

theorem frame_ki : Cert.frame_KernelIdeal (hKernelIdeal := Cert.KernelIdeal.Gen.facts) (hPre_finite_inputs := Cert.Pre_finite_inputs.Gen.facts) :=
  fun m ρ _ => Cert.KernelIdeal.Hand.frame_of m ρ (Cert.KernelIdeal.Hand.dats m) (Cert.KernelIdeal.Hand.A_eq m) (Cert.KernelIdeal.Hand.run_main m ρ)

theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => by
      repeat' apply And.intro
      all_goals exact (h c _).trans (Cert.ReferenceIdeal.Hand.kept_of_lt (by decide) _))
    (Cert.ReferenceIdeal.Hand.run m ρ)

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
